-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4x4096x4096 : Shape := ⟨3, ![4, 4096, 4096]⟩
abbrev S4x4096 : Shape := ⟨2, ![4, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S4x4096 : S_.BroadcastsInDim S4x4096 (![] : Fin 0 → Fin S4x4096.rank)
  reducesTo_S4x4096_S_d0_1 : S4x4096.ReducesTo [0, 1] S_

variable [Facts]

def fn_part1 {F : FTy → Type} [FloatOps F] (main_arg4 : FVec F S4x4096 .f32) (main_arg5 : FVec F S4x4096x4096 .f32) (main_v13 : IVec S_ 1) (main_v16 : IVec S4x4096 1) : IVec S_ 1 :=
  let main_c_5 : IVec S_ 1 := constantI S_ 1 1#1
  let main_v17 : IVec S_ 1 := (fun x v => Host.reduce IntOp.andi x v reducesTo_S4x4096_S_d0_1 h_S_) main_v16 main_c_5
  let main_v18 : IVec S_ 1 := andi main_v13 main_v17
  let main_v19 : FVec F S4x4096 .f32 := Host.absf main_arg4
  let main_cst_6 : FVec F S_ .f32 := constant S_ .f32 0x7F800000#32
  let main_v20 : FVec F S4x4096 .f32 := broadcastInDim S4x4096 ![] bcast_S_S4x4096 main_cst_6
  let main_v21 : IVec S4x4096 1 := cmpf .olt main_v19 main_v20
  let main_c_7 : IVec S_ 1 := constantI S_ 1 1#1
  let main_v22 : IVec S_ 1 := (fun x v => Host.reduce IntOp.andi x v reducesTo_S4x4096_S_d0_1 h_S_) main_v21 main_c_7
  let main_v23 : IVec S_ 1 := andi main_v18 main_v22
  let main_v24 : FVec F S4x4096x4096 .f32 := Host.absf main_arg5
  let main_cst_8 : FVec F S_ .f32 := constant S_ .f32 0x7F800000#32
  let main_v25 : FVec F S4x4096x4096 .f32 := broadcastInDim S4x4096x4096 ![] bcast_S_S4x4096x4096 main_cst_8
  let main_v26 : IVec S4x4096x4096 1 := cmpf .olt main_v24 main_v25
  let main_c_9 : IVec S_ 1 := constantI S_ 1 1#1
  let main_v27 : IVec S_ 1 := (fun x v => Host.reduce IntOp.andi x v reducesTo_S4x4096x4096_S_d0_1_2 h_S_) main_v26 main_c_9
  let main_v28 : IVec S_ 1 := andi main_v23 main_v27
  main_v28

def fn {F : FTy → Type} [FloatOps F] (main_arg0 : FVec F S4096x4096 .f32) (main_arg1 : FVec F S4x4096x4096 .f32) (main_arg2 : FVec F S4x4096x4096 .f32) (main_arg3 : FVec F S4x4096 .f32) (main_arg4 : FVec F S4x4096 .f32) (main_arg5 : FVec F S4x4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S4x4096x4096 .f32 := Host.absf main_arg2
  let main_cst_2 : FVec F S_ .f32 := constant S_ .f32 0x7F800000#32
  let main_v10 : FVec F S4x4096x4096 .f32 := broadcastInDim S4x4096x4096 ![] bcast_S_S4x4096x4096 main_cst_2
  let main_v11 : IVec S4x4096x4096 1 := cmpf .olt main_v9 main_v10
  let main_c_3 : IVec S_ 1 := constantI S_ 1 1#1
  let main_v12 : IVec S_ 1 := (fun x v => Host.reduce IntOp.andi x v reducesTo_S4x4096x4096_S_d0_1_2 h_S_) main_v11 main_c_3
  let main_v13 : IVec S_ 1 := andi main_v8 main_v12
  let main_v14 : FVec F S4x4096 .f32 := Host.absf main_arg3
  let main_cst_4 : FVec F S_ .f32 := constant S_ .f32 0x7F800000#32
  let main_v15 : FVec F S4x4096 .f32 := broadcastInDim S4x4096 ![] bcast_S_S4x4096 main_cst_4
  let main_v16 : IVec S4x4096 1 := cmpf .olt main_v14 main_v15
  fn_part1 (F := F) main_arg4 main_arg5 main_v13 main_v16
-- ==== Kernel.lean ====
abbrev S4096x4096 : Shape := ⟨2, ![4096, 4096]⟩
abbrev S4x4096x4096 : Shape := ⟨3, ![4, 4096, 4096]⟩
abbrev S4x4096 : Shape := ⟨2, ![4, 4096]⟩
abbrev S1x4096x4096 : Shape := ⟨3, ![1, 4096, 4096]⟩
abbrev S1x4096 : Shape := ⟨2, ![1, 4096]⟩
abbrev S4096 : Shape := ⟨1, ![4096]⟩
abbrev S512x1024 : Shape := ⟨2, ![512, 1024]⟩
abbrev S1x512 : Shape := ⟨2, ![1, 512]⟩
abbrev S512x512 : Shape := ⟨2, ![512, 512]⟩
abbrev S4096x16384 : Shape := ⟨2, ![4096, 16384]⟩

abbrev nBuf : Space → Nat
  | .hbm => 59
  | .vmem => 60
  | .smem => 0
  | _ => 0

abbrev bufTy : (tb : Table) → Fin (tcTables nBuf tb) → BufTy
  | .hbm, ⟨0, _⟩ => ⟨S4096x4096, .f32⟩
  | .hbm, ⟨1, _⟩ => ⟨S4x4096x4096, .f32⟩
  | .hbm, ⟨2, _⟩ => ⟨S4x4096x4096, .f32⟩
  | .hbm, ⟨3, _⟩ => ⟨S4x4096, .f32⟩
  | .hbm, ⟨4, _⟩ => ⟨S4x4096, .f32⟩
  | .hbm, ⟨5, _⟩ => ⟨S4x4096x4096, .f32⟩
  | .hbm, ⟨6, _⟩ => ⟨S1x4096x4096, .f32⟩
  | .hbm, ⟨7, _⟩ => ⟨S4096x4096, .f32⟩
  | .hbm, ⟨8, _⟩ => ⟨S1x4096x4096, .f32⟩
  | .hbm, ⟨9, _⟩ => ⟨S4096x4096, .f32⟩
  | .hbm, ⟨10, _⟩ => ⟨S1x4096, .f32⟩
  | .hbm, ⟨11, _⟩ => ⟨S4096, .f32⟩
  | .hbm, ⟨12, _⟩ => ⟨S1x4096, .f32⟩
  | .hbm, ⟨13, _⟩ => ⟨S1x4096, .f32⟩
  | .hbm, ⟨14, _⟩ => ⟨S4096, .f32⟩
  | .hbm, ⟨15, _⟩ => ⟨S1x4096, .f32⟩
  | .hbm, ⟨16, _⟩ => ⟨S1x4096x4096, .f32⟩
  | .hbm, ⟨17, _⟩ => ⟨S4096x4096, .f32⟩
  | .hbm, ⟨18, _⟩ => ⟨S4096x4096, .f32⟩
  | .hbm, ⟨19, _⟩ => ⟨S1x4096x4096, .f32⟩
  | .hbm, ⟨20, _⟩ => ⟨S4096x4096, .f32⟩
  | .hbm, ⟨21, _⟩ => ⟨S1x4096x4096, .f32⟩
  | .hbm, ⟨22, _⟩ => ⟨S4096x4096, .f32⟩
  | .hbm, ⟨23, _⟩ => ⟨S1x4096, .f32⟩
  | .hbm, ⟨24, _⟩ => ⟨S4096, .f32⟩
  | .hbm, ⟨25, _⟩ => ⟨S1x4096, .f32⟩
  | .hbm, ⟨26, _⟩ => ⟨S1x4096, .f32⟩
  | .hbm, ⟨27, _⟩ => ⟨S4096, .f32⟩
  | .hbm, ⟨28, _⟩ => ⟨S1x4096, .f32⟩
  | .hbm, ⟨29, _⟩ => ⟨S1x4096x4096, .f32⟩
  | .hbm, ⟨30, _⟩ => ⟨S4096x4096, .f32⟩
  | .hbm, ⟨31, _⟩ => ⟨S4096x4096, .f32⟩
  | .hbm, ⟨32, _⟩ => ⟨S1x4096x4096, .f32⟩
  | .hbm, ⟨33, _⟩ => ⟨S4096x4096, .f32⟩
  | .hbm, ⟨34, _⟩ => ⟨S1x4096x4096, .f32⟩
  | .hbm, ⟨35, _⟩ => ⟨S4096x4096, .f32⟩
  | .hbm, ⟨36, _⟩ => ⟨S1x4096, .f32⟩
  | .hbm, ⟨37, _⟩ => ⟨S4096, .f32⟩
  | .hbm, ⟨38, _⟩ => ⟨S1x4096, .f32⟩
  | .hbm, ⟨39, _⟩ => ⟨S1x4096, .f32⟩
  | .hbm, ⟨40, _⟩ => ⟨S4096, .f32⟩
  | .hbm, ⟨41, _⟩ => ⟨S1x4096, .f32⟩
  | .hbm, ⟨42, _⟩ => ⟨S1x4096x4096, .f32⟩
  | .hbm, ⟨43, _⟩ => ⟨S4096x4096, .f32⟩
  | .hbm, ⟨44, _⟩ => ⟨S4096x4096, .f32⟩
  | .hbm, ⟨45, _⟩ => ⟨S1x4096x4096, .f32⟩
  | .hbm, ⟨46, _⟩ => ⟨S4096x4096, .f32⟩
  | .hbm, ⟨47, _⟩ => ⟨S1x4096x4096, .f32⟩
  | .hbm, ⟨48, _⟩ => ⟨S4096x4096, .f32⟩
  | .hbm, ⟨49, _⟩ => ⟨S1x4096, .f32⟩
  | .hbm, ⟨50, _⟩ => ⟨S4096, .f32⟩
  | .hbm, ⟨51, _⟩ => ⟨S1x4096, .f32⟩
  | .hbm, ⟨52, _⟩ => ⟨S1x4096, .f32⟩
  | .hbm, ⟨53, _⟩ => ⟨S4096, .f32⟩
  | .hbm, ⟨54, _⟩ => ⟨S1x4096, .f32⟩
  | .hbm, ⟨55, _⟩ => ⟨S1x4096x4096, .f32⟩
  | .hbm, ⟨56, _⟩ => ⟨S4096x4096, .f32⟩
  | .hbm, ⟨57, _⟩ => ⟨S4096x4096, .f32⟩
  | .hbm, ⟨58, _⟩ => ⟨S4096x16384, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | .local _ .vmem, ⟨36, _⟩ => ⟨S1x512, .f32⟩
  | .local _ .vmem, ⟨37, _⟩ => ⟨S1x512, .f32⟩
  | .local _ .vmem, ⟨38, _⟩ => ⟨S1x512, .f32⟩
  | .local _ .vmem, ⟨39, _⟩ => ⟨S1x512, .f32⟩
  | .local _ .vmem, ⟨40, _⟩ => ⟨S512x512, .f32⟩
  | .local _ .vmem, ⟨41, _⟩ => ⟨S512x512, .f32⟩
  | .local _ .vmem, ⟨42, _⟩ => ⟨S512x512, .f32⟩
  | .local _ .vmem, ⟨43, _⟩ => ⟨S512x512, .f32⟩
  | .local _ .vmem, ⟨44, _⟩ => ⟨S512x512, .f32⟩
  | .local _ .vmem, ⟨45, _⟩ => ⟨S512x1024, .f32⟩
  | .local _ .vmem, ⟨46, _⟩ => ⟨S512x1024, .f32⟩
  | .local _ .vmem, ⟨47, _⟩ => ⟨S512x1024, .f32⟩
  | .local _ .vmem, ⟨48, _⟩ => ⟨S512x1024, .f32⟩
  | .local _ .vmem, ⟨49, _⟩ => ⟨S512x1024, .f32⟩
  | .local _ .vmem, ⟨50, _⟩ => ⟨S512x1024, .f32⟩
  | .local _ .vmem, ⟨51, _⟩ => ⟨S1x512, .f32⟩
  | .local _ .vmem, ⟨52, _⟩ => ⟨S1x512, .f32⟩
  | .local _ .vmem, ⟨53, _⟩ => ⟨S1x512, .f32⟩
  | .local _ .vmem, ⟨54, _⟩ => ⟨S1x512, .f32⟩
  | .local _ .vmem, ⟨55, _⟩ => ⟨S512x512, .f32⟩
  | .local _ .vmem, ⟨56, _⟩ => ⟨S512x512, .f32⟩
  | .local _ .vmem, ⟨57, _⟩ => ⟨S512x512, .f32⟩
  | .local _ .vmem, ⟨58, _⟩ => ⟨S512x512, .f32⟩
  | .local _ .vmem, ⟨59, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_scratch0 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg3_1 : Ref sig .tc := ⟨.vmem, 37, rfl⟩
abbrev cc2_stg4_0 : Ref sig .tc := ⟨.vmem, 38, rfl⟩
abbrev cc2_stg4_1 : Ref sig .tc := ⟨.vmem, 39, rfl⟩
abbrev cc2_stg5_0 : Ref sig .tc := ⟨.vmem, 40, rfl⟩
abbrev cc2_stg5_1 : Ref sig .tc := ⟨.vmem, 41, rfl⟩
abbrev cc2_stg6_0 : Ref sig .tc := ⟨.vmem, 42, rfl⟩
abbrev cc2_stg6_1 : Ref sig .tc := ⟨.vmem, 43, rfl⟩
abbrev cc2_scratch0 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg1_1 : Ref sig .tc := ⟨.vmem, 48, rfl⟩
abbrev cc3_stg2_0 : Ref sig .tc := ⟨.vmem, 49, rfl⟩
abbrev cc3_stg2_1 : Ref sig .tc := ⟨.vmem, 50, rfl⟩
abbrev cc3_stg3_0 : Ref sig .tc := ⟨.vmem, 51, rfl⟩
abbrev cc3_stg3_1 : Ref sig .tc := ⟨.vmem, 52, rfl⟩
abbrev cc3_stg4_0 : Ref sig .tc := ⟨.vmem, 53, rfl⟩
abbrev cc3_stg4_1 : Ref sig .tc := ⟨.vmem, 54, rfl⟩
abbrev cc3_stg5_0 : Ref sig .tc := ⟨.vmem, 55, rfl⟩
abbrev cc3_stg5_1 : Ref sig .tc := ⟨.vmem, 56, rfl⟩
abbrev cc3_stg6_0 : Ref sig .tc := ⟨.vmem, 57, rfl⟩
abbrev cc3_stg6_1 : Ref sig .tc := ⟨.vmem, 58, rfl⟩
abbrev cc3_scratch0 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem5_1 : DmaSem sig := 39
abbrev cc2_sem6_0 : DmaSem sig := 40
abbrev cc2_sem6_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem3_1 : DmaSem sig := 49
abbrev cc3_sem4_0 : DmaSem sig := 50
abbrev cc3_sem4_1 : DmaSem sig := 51
abbrev cc3_sem5_0 : DmaSem sig := 52
abbrev cc3_sem5_1 : DmaSem sig := 53
abbrev cc3_sem6_0 : DmaSem sig := 54
abbrev cc3_sem6_1 : DmaSem sig := 55

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev grid1 : Pipeline.Grid := ⟨3, ![8, 8, 4], ![false, false, false]⟩

def k1_cond2 (i : grid1.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_10 : BitVec 32 := 0#32
  let v20 : BitVec 1 := Scalar.cmpi .ne v19 c0_i32_10
  v20

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev grid2 : Pipeline.Grid := ⟨3, ![8, 8, 4], ![false, false, false]⟩

def k2_cond2 (i : grid2.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_10 : BitVec 32 := 0#32
  let v20 : BitVec 1 := Scalar.cmpi .ne v19 c0_i32_10
  v20

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S1x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true, false]

abbrev stage2_5 : Fin 2 → Memref sig .tc .vmem S512x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev stage2_6 : Fin 2 → Memref sig .tc .vmem S512x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, false]

abbrev grid3 : Pipeline.Grid := ⟨3, ![8, 8, 4], ![false, false, false]⟩

def k3_cond2 (i : grid3.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_10 : BitVec 32 := 0#32
  let v20 : BitVec 1 := Scalar.cmpi .ne v19 c0_i32_10
  v20

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_6 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, true]

abbrev stage3_3 : Fin 2 → Memref sig .tc .vmem S1x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true, false]

abbrev stage3_4 : Fin 2 → Memref sig .tc .vmem S1x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, true, false]

abbrev stage3_5 : Fin 2 → Memref sig .tc .vmem S512x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

abbrev stage3_6 : Fin 2 → Memref sig .tc .vmem S512x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true, false]

class Facts₀ : Prop where
  slices_S4x4096x4096_S1x4096x4096_0_0_0 : S4x4096x4096.Slices ![0, 0, 0] S1x4096x4096
  shapeCasts_S1x4096x4096_S4096x4096 : S1x4096x4096.ShapeCasts S4096x4096
  slices_S4x4096_S1x4096_0_0 : S4x4096.Slices ![0, 0] S1x4096
  shapeCasts_S1x4096_S4096 : S1x4096.ShapeCasts S4096
  shapeCasts_S4096_S1x4096 : S4096.ShapeCasts S1x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  slices_S4x4096x4096_S1x4096x4096_1_0_0 : S4x4096x4096.Slices ![1, 0, 0] S1x4096x4096
  slices_S4x4096_S1x4096_1_0 : S4x4096.Slices ![1, 0] S1x4096
  slices_S4x4096x4096_S1x4096x4096_2_0_0 : S4x4096x4096.Slices ![2, 0, 0] S1x4096x4096
  slices_S4x4096_S1x4096_2_0 : S4x4096.Slices ![2, 0] S1x4096
  slices_S4x4096x4096_S1x4096x4096_3_0_0 : S4x4096x4096.Slices ![3, 0, 0] S1x4096x4096
  slices_S4x4096_S1x4096_3_0 : S4x4096.Slices ![3, 0] S1x4096
  concatenates_S4096x4096_S4096x4096_S4096x4096_S4096x4096_S4096x16384_d1 : Shape.Concatenates [S4096x4096, S4096x4096, S4096x4096, S4096x4096] S4096x16384 1
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x4096.size a
  hwx0_0 : ∀ i : grid0.Coords, EltTy.bits .f32 = 32 ∨ (Rect.block (s := S4096x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x4096.size a
  hwx0_5 : ∀ i : grid0.Coords, EltTy.bits .f32 = 32 ∨ (Rect.block (s := S4096x4096) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S4096x4096.size a
  hwx0_6 : ∀ i : grid0.Coords, EltTy.bits .f32 = 32 ∨ (Rect.block (s := S4096x4096) S512x512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x4096.size a
  hwx1_0 : ∀ i : grid1.Coords, EltTy.bits .f32 = 32 ∨ (Rect.block (s := S4096x4096) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x4096.size a
  hwx1_1 : ∀ i : grid1.Coords, EltTy.bits .f32 = 32 ∨ (Rect.block (s := S4096x4096) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x4096.size a
  hwx1_2 : ∀ i : grid1.Coords, EltTy.bits .f32 = 32 ∨ (Rect.block (s := S4096x4096) S512x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .f32 = 32 ∨ (Rect.block (s := S1x4096) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x4096.size a
  hwx1_4 : ∀ i : grid1.Coords, EltTy.bits .f32 = 32 ∨ (Rect.block (s := S1x4096) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S4096x4096.size a
  hwx1_5 : ∀ i : grid1.Coords, EltTy.bits .f32 = 32 ∨ (Rect.block (s := S4096x4096) S512x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S4096x4096.size a
  hwx1_6 : ∀ i : grid1.Coords, EltTy.bits .f32 = 32 ∨ (Rect.block (s := S4096x4096) S512x512.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x4096.size a
  hwx2_0 : ∀ i : grid2.Coords, EltTy.bits .f32 = 32 ∨ (Rect.block (s := S4096x4096) S512x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S4096x4096.size a
  hwx2_1 : ∀ i : grid2.Coords, EltTy.bits .f32 = 32 ∨ (Rect.block (s := S4096x4096) S512x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x4096.size a
  hwx2_2 : ∀ i : grid2.Coords, EltTy.bits .f32 = 32 ∨ (Rect.block (s := S4096x4096) S512x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x4096.size a
  hwx2_3 : ∀ i : grid2.Coords, EltTy.bits .f32 = 32 ∨ (Rect.block (s := S1x4096) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x4096.size a
  hwx2_4 : ∀ i : grid2.Coords, EltTy.bits .f32 = 32 ∨ (Rect.block (s := S1x4096) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x512.size a ≤ S4096x4096.size a
  hwx2_5 : ∀ i : grid2.Coords, EltTy.bits .f32 = 32 ∨ (Rect.block (s := S4096x4096) S512x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x512.size a ≤ S4096x4096.size a
  hwx2_6 : ∀ i : grid2.Coords, EltTy.bits .f32 = 32 ∨ (Rect.block (s := S4096x4096) S512x512.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S4096x4096.size a
  hwx3_0 : ∀ i : grid3.Coords, EltTy.bits .f32 = 32 ∨ (Rect.block (s := S4096x4096) S512x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x1024.size a ≤ S4096x4096.size a
  hwx3_1 : ∀ i : grid3.Coords, EltTy.bits .f32 = 32 ∨ (Rect.block (s := S4096x4096) S512x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x1024.size a ≤ S4096x4096.size a
  hwx3_2 : ∀ i : grid3.Coords, EltTy.bits .f32 = 32 ∨ (Rect.block (s := S4096x4096) S512x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x4096.size a
  hwx3_3 : ∀ i : grid3.Coords, EltTy.bits .f32 = 32 ∨ (Rect.block (s := S1x4096) S1x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x512.size a ≤ S1x4096.size a
  hwx3_4 : ∀ i : grid3.Coords, EltTy.bits .f32 = 32 ∨ (Rect.block (s := S1x4096) S1x512.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x512.size a ≤ S4096x4096.size a
  hwx3_5 : ∀ i : grid3.Coords, EltTy.bits .f32 = 32 ∨ (Rect.block (s := S4096x4096) S512x512.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S512x512.size a ≤ S4096x4096.size a
  hwx3_6 : ∀ i : grid3.Coords, EltTy.bits .f32 = 32 ∨ (Rect.block (s := S4096x4096) S512x512.size (cc3_transform_6 i) (hinb3_6 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S512x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v12) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v24) S512x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v25) S512x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v25) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S512x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v32) S1x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v35) S1x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v37) S512x512.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v38) S512x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v38) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S512x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S512x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v45) S1x512.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v48) S1x512.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v50) S512x512.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v51) S512x512.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond2 i == 1#1) | ⟨_ + 7, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4x4096x4096 : Shape := ⟨3, ![4, 4096, 4096]⟩
abbrev S4x4096 : Shape := ⟨2, ![4, 4096]⟩
abbrev S1x4096x4096 : Shape := ⟨3, ![1, 4096, 4096]⟩
abbrev S1x4096 : Shape := ⟨2, ![1, 4096]⟩
abbrev S4096 : Shape := ⟨1, ![4096]⟩
abbrev S_ : Shape := ⟨0, ![]⟩
abbrev S4096x16384 : Shape := ⟨2, ![4096, 16384]⟩

abbrev nBuf : Space → Nat
  | .hbm => 99
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4x4096x4096, .f32⟩
  | .hbm, ⟨2, _⟩ => ⟨S4x4096x4096, .f32⟩
  | .hbm, ⟨3, _⟩ => ⟨S4x4096, .f32⟩
  | .hbm, ⟨4, _⟩ => ⟨S4x4096, .f32⟩
  | .hbm, ⟨5, _⟩ => ⟨S4x4096x4096, .f32⟩
  | .hbm, ⟨6, _⟩ => ⟨S1x4096x4096, .f32⟩
  | .hbm, ⟨7, _⟩ => ⟨S4096x4096, .f32⟩
  | .hbm, ⟨8, _⟩ => ⟨S1x4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S1x4096, .f32⟩
  | .hbm, ⟨13, _⟩ => ⟨S4096, .f32⟩
  | .hbm, ⟨14, _⟩ => ⟨S1x4096, .f32⟩
  | .hbm, ⟨15, _⟩ => ⟨S1x4096, .f32⟩
  | .hbm, ⟨16, _⟩ => ⟨S4096, .f32⟩
  | .hbm, ⟨17, _⟩ => ⟨S1x4096, .f32⟩
  | .hbm, ⟨18, _⟩ => ⟨S1x4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S1x4096x4096, .f32⟩
  | .hbm, ⟨30, _⟩ => ⟨S4096x4096, .f32⟩
  | .hbm, ⟨31, _⟩ => ⟨S1x4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S1x4096, .f32⟩
  | .hbm, ⟨36, _⟩ => ⟨S4096, .f32⟩
  | .hbm, ⟨37, _⟩ => ⟨S1x4096, .f32⟩
  | .hbm, ⟨38, _⟩ => ⟨S1x4096, .f32⟩
  | .hbm, ⟨39, _⟩ => ⟨S4096, .f32⟩
  | .hbm, ⟨40, _⟩ => ⟨S1x4096, .f32⟩
  | .hbm, ⟨41, _⟩ => ⟨S1x4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S4096x4096, .f32⟩
  | .hbm, ⟨51, _⟩ => ⟨S4096x4096, .f32⟩
  | .hbm, ⟨52, _⟩ => ⟨S1x4096x4096, .f32⟩
  | .hbm, ⟨53, _⟩ => ⟨S4096x4096, .f32⟩
  | .hbm, ⟨54, _⟩ => ⟨S1x4096x4096, .f32⟩
  | .hbm, ⟨55, _⟩ => ⟨S4096x4096, .f32⟩
  | .hbm, ⟨56, _⟩ => ⟨S4096x4096, .f32⟩
  | .hbm, ⟨57, _⟩ => ⟨S4096x4096, .f32⟩
  | .hbm, ⟨58, _⟩ => ⟨S1x4096, .f32⟩
  | .hbm, ⟨59, _⟩ => ⟨S4096, .f32⟩
  | .hbm, ⟨60, _⟩ => ⟨S1x4096, .f32⟩
  | .hbm, ⟨61, _⟩ => ⟨S1x4096, .f32⟩
  | .hbm, ⟨62, _⟩ => ⟨S4096, .f32⟩
  | .hbm, ⟨63, _⟩ => ⟨S1x4096, .f32⟩
  | .hbm, ⟨64, _⟩ => ⟨S1x4096x4096, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S4096x4096, .f32⟩
  | .hbm, ⟨72, _⟩ => ⟨S_, .f32⟩
  | .hbm, ⟨73, _⟩ => ⟨S4096x4096, .f32⟩
  | .hbm, ⟨74, _⟩ => ⟨S4096x4096, .f32⟩
  | .hbm, ⟨75, _⟩ => ⟨S1x4096x4096, .f32⟩
  | .hbm, ⟨76, _⟩ => ⟨S4096x4096, .f32⟩
  | .hbm, ⟨77, _⟩ => ⟨S1x4096x4096, .f32⟩
  | .hbm, ⟨78, _⟩ => ⟨S4096x4096, .f32⟩
  | .hbm, ⟨79, _⟩ => ⟨S4096x4096, .f32⟩
  | .hbm, ⟨80, _⟩ => ⟨S4096x4096, .f32⟩
  | .hbm, ⟨81, _⟩ => ⟨S1x4096, .f32⟩
  | .hbm, ⟨82, _⟩ => ⟨S4096, .f32⟩
  | .hbm, ⟨83, _⟩ => ⟨S1x4096, .f32⟩
  | .hbm, ⟨84, _⟩ => ⟨S1x4096, .f32⟩
  | .hbm, ⟨85, _⟩ => ⟨S4096, .f32⟩
  | .hbm, ⟨86, _⟩ => ⟨S1x4096, .f32⟩
  | .hbm, ⟨87, _⟩ => ⟨S1x4096x4096, .f32⟩
  | .hbm, ⟨88, _⟩ => ⟨S4096x4096, .f32⟩
  | .hbm, ⟨89, _⟩ => ⟨S4096x4096, .f32⟩
  | .hbm, ⟨90, _⟩ => ⟨S4096x4096, .f32⟩
  | .hbm, ⟨91, _⟩ => ⟨S4096x4096, .f32⟩
  | .hbm, ⟨92, _⟩ => ⟨S4096x4096, .f32⟩
  | .hbm, ⟨93, _⟩ => ⟨S4096x4096, .f32⟩
  | .hbm, ⟨94, _⟩ => ⟨S4096x4096, .f32⟩
  | .hbm, ⟨95, _⟩ => ⟨S_, .f32⟩
  | .hbm, ⟨96, _⟩ => ⟨S4096x4096, .f32⟩
  | .hbm, ⟨97, _⟩ => ⟨S4096x4096, .f32⟩
  | .hbm, ⟨98, _⟩ => ⟨S4096x16384, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_cst : Ref sig .tc := ⟨.hbm, 26, rfl⟩
abbrev main_call0_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_call1_cst : Ref sig .tc := ⟨.hbm, 49, rfl⟩
abbrev main_call1_v0 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_call2_cst : Ref sig .tc := ⟨.hbm, 72, rfl⟩
abbrev main_call2_v0 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_call3_cst : Ref sig .tc := ⟨.hbm, 95, rfl⟩
abbrev main_call3_v0 : Ref sig .tc := ⟨.hbm, 96, rfl⟩
abbrev main_v83 : Ref sig .tc := ⟨.hbm, 97, rfl⟩
abbrev main_v84 : Ref sig .tc := ⟨.hbm, 98, rfl⟩

abbrev nD : Nat := 1
abbrev τ : Topo := Topo.v7x

variable {F : FTy → Type} [FloatOps F]

class Facts₀ : Prop where
  slices_S4x4096x4096_S1x4096x4096_0_0_0 : S4x4096x4096.Slices ![0, 0, 0] S1x4096x4096
  shapeCasts_S1x4096x4096_S4096x4096 : S1x4096x4096.ShapeCasts S4096x4096
  slices_S4x4096_S1x4096_0_0 : S4x4096.Slices ![0, 0] S1x4096
  shapeCasts_S1x4096_S4096 : S1x4096.ShapeCasts S4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  slices_S4x4096x4096_S1x4096x4096_1_0_0 : S4x4096x4096.Slices ![1, 0, 0] S1x4096x4096
  slices_S4x4096_S1x4096_1_0 : S4x4096.Slices ![1, 0] S1x4096
  slices_S4x4096x4096_S1x4096x4096_2_0_0 : S4x4096x4096.Slices ![2, 0, 0] S1x4096x4096
  slices_S4x4096_S1x4096_2_0 : S4x4096.Slices ![2, 0] S1x4096
  slices_S4x4096x4096_S1x4096x4096_3_0_0 : S4x4096x4096.Slices ![3, 0, 0] S1x4096x4096
  slices_S4x4096_S1x4096_3_0 : S4x4096.Slices ![3, 0] S1x4096
  concatenates_S4096x4096_S4096x4096_S4096x4096_S4096x4096_S4096x16384_d1 : Shape.Concatenates [S4096x4096, S4096x4096, S4096x4096, S4096x4096] S4096x16384 1
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.KernelIdeal.R0.Runs.lean ====
import proofs.«128115_j49460843381367_1_alg».proof.Proof.Gen.KernelIdeal.Launch
import proofs.«128115_j49460843381367_1_alg».proof.Proof.Gen.KernelIdeal.Skeleton
import proofs.«128115_j49460843381367_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk_r0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- The grid's last coordinate k walks the contraction in four slabs: k = 0 is the first slab, k = 3 the last.
abbrev cond_r0_0 (i : grid0.Coords) : Prop := (Scalar.cmpi .ne (Scalar.extui (Scalar.cmpi .eq (BitVec.ofNat 32 (i 2).val) 0#32)) 0#32) = 1#1
theorem hcond_r0_0 : ∀ t : Fin cfg0.N, cond_r0_0 (grid0.coords t) ↔ t.val % 4 = 0 :=
  (by decide +kernel : ∀ t : Fin grid0.N, cond_r0_0 (grid0.coords t) ↔ t.val % 4 = 0)

abbrev cond_r0_1 (i : grid0.Coords) : Prop := k0_cond2 i = 1#1
theorem hcond_r0_1 : ∀ t : Fin cfg0.N, cond_r0_1 (grid0.coords t) ↔ t.val % 4 = 3 :=
  (by decide +kernel : ∀ t : Fin grid0.N, cond_r0_1 (grid0.coords t) ↔ t.val % 4 = 3)

theorem live_r0 : ∀ (w : Fin cfg0.W) (t : Fin cfg0.N), w ≠ 6 → cfg0.idle w (grid0.coords t) = false := by decide +kernel

theorem idleAt_r0_6 : ∀ t : Fin cfg0.N, ¬cond_r0_1 (grid0.coords t) → cfg0.idle 6 (grid0.coords t) = true := by decide +kernel
theorem noFlush_r0_6 : ∀ t : Fin cfg0.N, ¬cond_r0_1 (grid0.coords t) → (cfg0.win 6).flush t = false := by decide +kernel

theorem liveAt_r0_6 : ∀ t : Fin cfg0.N, cond_r0_1 (grid0.coords t) → cfg0.idle 6 (grid0.coords t) = false := by decide +kernel

abbrev ms_r0_0 (t : Fin cfg0.N) : Memref sig .tc .vmem S512x1024 .f32 := win0_0.stage (cfg0.slots t 0)
abbrev hs_r0_0 (t : Fin cfg0.N) : (ms_r0_0 t).IsWhole := hstage0_0 ((cfg0.slots t 0).cast nbuf0_0)
abbrev ms_r0_1 (t : Fin cfg0.N) : Memref sig .tc .vmem S512x1024 .f32 := win0_1.stage (cfg0.slots t 1)
abbrev hs_r0_1 (t : Fin cfg0.N) : (ms_r0_1 t).IsWhole := hstage0_1 ((cfg0.slots t 1).cast nbuf0_1)
abbrev ms_r0_2 (t : Fin cfg0.N) : Memref sig .tc .vmem S512x1024 .f32 := win0_2.stage (cfg0.slots t 2)
abbrev hs_r0_2 (t : Fin cfg0.N) : (ms_r0_2 t).IsWhole := hstage0_2 ((cfg0.slots t 2).cast nbuf0_2)
abbrev ms_r0_3 (t : Fin cfg0.N) : Memref sig .tc .vmem S1x512 .f32 := win0_3.stage (cfg0.slots t 3)
abbrev hs_r0_3 (t : Fin cfg0.N) : (ms_r0_3 t).IsWhole := hstage0_3 ((cfg0.slots t 3).cast nbuf0_3)
abbrev ms_r0_4 (t : Fin cfg0.N) : Memref sig .tc .vmem S1x512 .f32 := win0_4.stage (cfg0.slots t 4)
abbrev hs_r0_4 (t : Fin cfg0.N) : (ms_r0_4 t).IsWhole := hstage0_4 ((cfg0.slots t 4).cast nbuf0_4)
abbrev ms_r0_5 (t : Fin cfg0.N) : Memref sig .tc .vmem S512x512 .f32 := win0_5.stage (cfg0.slots t 5)
abbrev hs_r0_5 (t : Fin cfg0.N) : (ms_r0_5 t).IsWhole := hstage0_5 ((cfg0.slots t 5).cast nbuf0_5)
abbrev ms_r0_6 (t : Fin cfg0.N) : Memref sig .tc .vmem S512x512 .f32 := win0_6.stage (cfg0.slots t 6)
abbrev hs_r0_6 (t : Fin cfg0.N) : (ms_r0_6 t).IsWhole := hstage0_6 ((cfg0.slots t 6).cast nbuf0_6)

abbrev scM_r0 : Memref sig .tc .vmem S512x512 .f32 := Memref.whole cc0_scratch0
abbrev VS_r0 : View sig .tc .vmem S512x512 .f32 := scM_r0.view

abbrev VO_r0 : View sig .tc .vmem S512x512 .f32 := (Memref.whole cc0_stg6_0 : Memref sig .tc .vmem S512x512 .f32).view

abbrev restBut_r0 (c : Dev nD) : sProp 𝕄 :=
  Pipeline.scopedRestBut (Ix := Unit) (Name := ℕ) (U := UR sig nD τ) (Lvl := ℕ) (Val := Elt F) spec0 c [cc0_scratch0]

theorem PhiA_r0_eq (c : Dev nD) :
    (Pipeline.ΦA spec0 c : sProp 𝕄)
      = iprop(iprop((∃ d, owns (c : Thread nD τ) scM_r0 fullShare d) ∗ restBut_r0 c) ∗ (∃ r, prngReg c r)) := by
  unfold Pipeline.ΦA; rw [scopedRest0_split]; simp only [scM_r0, owns_whole]; try rfl

end Cert.KernelIdeal.Hand

end
-- ==== Proof.KernelIdeal.R0.Run.lean ====
import proofs.«128115_j49460843381367_1_alg».proof.Proof.KernelIdeal.R0.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole)
  (arg6 : Memref sig .tc .vmem S1x512 .f32) (harg6 : arg6.IsWhole) (arg7 : Memref sig .tc .vmem S1x512 .f32) (harg7 : arg7.IsWhole) (arg8 : Memref sig .tc .vmem S512x512 .f32) (harg8 : arg8.IsWhole)
  (arg9 : Memref sig .tc .vmem S512x512 .f32) (harg9 : arg9.IsWhole) (arg10 : Memref sig .tc .vmem S512x512 .f32) (harg10 : arg10.IsWhole)

set_option maxHeartbeats 4000000 in
noncomputable def kernelRun_r0_A (hc0 : cond_r0_0 i) (hc1 : ¬cond_r0_1 i)
    (x0 x1 x2 : Vec F S512x1024 .f32) :
    { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ (∃ f, arg10.view.loc (c : Thread nD τ) ↦[arg10.view.set]{fullShare} arg10.view.writes (Elt F) f LS0)) -∗ K ⟨⟩))
          ⊢ wp frame (wpE (defs₀ (F := F)) Variants.none c none) E (cc0__scm_mlp_layer_kernel i arg3 harg3 arg4 harg4 arg5 harg5 arg6 harg6 arg7 harg7 arg8 harg8 arg9 harg9 arg10 harg10) K } := by
  refine ⟨?_, fun E K => ?run⟩
  case run =>
    simp only [cc0__scm_mlp_layer_kernel_eq_skeleton]; unfold cc0__scm_mlp_layer_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 4000000 in
noncomputable def kernelRun_r0_B (hc0 : ¬cond_r0_0 i) (hc1 : ¬cond_r0_1 i)
    (x0 x1 x2 : Vec F S512x1024 .f32) (xs0 : Vec F S512x512 .f32) :
    { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg10 fullShare xs0
            ∗ (iprop(owns (c : Thread nD τ) arg3 fullShare x0 ∗ owns (c : Thread nD τ) arg4 fullShare x1 ∗ owns (c : Thread nD τ) arg5 fullShare x2 ∗ (∃ f, arg10.view.loc (c : Thread nD τ) ↦[arg10.view.set]{fullShare} arg10.view.writes (Elt F) f LS0)) -∗ K ⟨⟩))
          ⊢ wp frame (wpE (defs₀ (F := F)) Variants.none c none) E (cc0__scm_mlp_layer_kernel i arg3 harg3 arg4 harg4 arg5 harg5 arg6 harg6 arg7 harg7 arg8 harg8 arg9 harg9 arg10 harg10) K } := by
  refine ⟨?_, fun E K => ?run⟩
  case run =>
    simp only [cc0__scm_mlp_layer_kernel_eq_skeleton]; unfold cc0__scm_mlp_layer_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 4000000 in
noncomputable def kernelRun_r0_C (hc0 : ¬cond_r0_0 i) (hc1 : cond_r0_1 i)
    (x0 x1 x2 : Vec F S512x1024 .f32) (x3 x4 : Vec F S1x512 .f32) (x5 : Vec F S512x512 .f32) (xs0 : Vec F S512x512 .f32) :
    Σ' (L6 : List (View.Piece (Elt F) S512x512 .f32)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc0__scm_mlp_layer_kernel i arg3 harg3 arg4 harg4 arg5 harg5 arg6 harg6 arg7 harg7 arg8 harg8 arg9 harg9 arg10 harg10) K } := by
  refine ⟨?_, ?_, fun E K => ?run⟩
  case run =>
    simp only [cc0__scm_mlp_layer_kernel_eq_skeleton]; unfold cc0__scm_mlp_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0
end

end Cert.KernelIdeal.Hand

end
-- ==== Proof.KernelIdeal.R0.Frame.lean ====
import proofs.«128115_j49460843381367_1_alg».proof.Proof.KernelIdeal.R0.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole)
  (arg6 : Memref sig .tc .vmem S1x512 .f32) (harg6 : arg6.IsWhole) (arg7 : Memref sig .tc .vmem S1x512 .f32) (harg7 : arg7.IsWhole) (arg8 : Memref sig .tc .vmem S512x512 .f32) (harg8 : arg8.IsWhole)
  (arg9 : Memref sig .tc .vmem S512x512 .f32) (harg9 : arg9.IsWhole) (arg10 : Memref sig .tc .vmem S512x512 .f32) (harg10 : arg10.IsWhole)

section
variable (hc0 : cond_r0_0 i) (hc1 : ¬cond_r0_1 i) (x0 x1 x2 : Vec F S512x1024 .f32)

theorem scover_r0_A (y : S512x512.Idx) : ∃ pc ∈ (kernelRun_r0_A c i arg3 harg3 arg4 harg4 arg5 harg5 arg6 harg6 arg7 harg7 arg8 harg8 arg9 harg9 arg10 harg10 hc0 hc1 x0 x1 x2).1, y ∈ pc.1.set :=
  View.cover_of_tiledL _ S512x512.size (by sl_kernel_rfl) y

def sout_r0_A : Vec F S512x512 .f32 :=
  VS_r0.read (Elt F) (VS_r0.writes (Elt F) VS_r0.junk (kernelRun_r0_A c i arg3 harg3 arg4 harg4 arg5 harg5 arg6 harg6 arg7 harg7 arg8 harg8 arg9 harg9 arg10 harg10 hc0 hc1 x0 x1 x2).1)
end

section
variable (hc0 : ¬cond_r0_0 i) (hc1 : ¬cond_r0_1 i) (x0 x1 x2 : Vec F S512x1024 .f32) (xs0 : Vec F S512x512 .f32)

theorem scover_r0_B (y : S512x512.Idx) : ∃ pc ∈ (kernelRun_r0_B c i arg3 harg3 arg4 harg4 arg5 harg5 arg6 harg6 arg7 harg7 arg8 harg8 arg9 harg9 arg10 harg10 hc0 hc1 x0 x1 x2 xs0).1, y ∈ pc.1.set :=
  View.cover_of_tiledL _ S512x512.size (by sl_kernel_rfl) y

def sout_r0_B : Vec F S512x512 .f32 :=
  VS_r0.read (Elt F) (VS_r0.writes (Elt F) VS_r0.junk (kernelRun_r0_B c i arg3 harg3 arg4 harg4 arg5 harg5 arg6 harg6 arg7 harg7 arg8 harg8 arg9 harg9 arg10 harg10 hc0 hc1 x0 x1 x2 xs0).1)
end

section
variable (hc0 : ¬cond_r0_0 i) (hc1 : cond_r0_1 i) (x0 x1 x2 : Vec F S512x1024 .f32) (x3 x4 : Vec F S1x512 .f32) (x5 xs0 : Vec F S512x512 .f32)

theorem cover_r0_C (y : S512x512.Idx) : ∃ pc ∈ (kernelRun_r0_C c i arg3 harg3 arg4 harg4 arg5 harg5 arg6 harg6 arg7 harg7 arg8 harg8 arg9 harg9 arg10 harg10 hc0 hc1 x0 x1 x2 x3 x4 x5 xs0).1, y ∈ pc.1.set :=
  View.cover_of_tiledL _ S512x512.size (by sl_kernel_rfl) y

def out_r0_C : Vec F S512x512 .f32 :=
  VO_r0.read (Elt F) (VO_r0.writes (Elt F) VO_r0.junk (kernelRun_r0_C c i arg3 harg3 arg4 harg4 arg5 harg5 arg6 harg6 arg7 harg7 arg8 harg8 arg9 harg9 arg10 harg10 hc0 hc1 x0 x1 x2 x3 x4 x5 xs0).1)

theorem scover_r0_C (y : S512x512.Idx) : ∃ pc ∈ (kernelRun_r0_C c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL _ S512x512.size (by sl_kernel_rfl) y

def sout_r0_C : Vec F S512x512 .f32 :=
  VS_r0.read (Elt F) (VS_r0.writes (Elt F) VS_r0.junk (kernelRun_r0_C c i arg3 harg3 arg4 harg4 arg5 harg5 arg6 harg6 arg7 harg7 arg8 harg8 arg9 harg9 arg10 harg10 hc0 hc1 x0 x1 x2 x3 x4 x5 xs0).2.1)
end
end

def idleOut_r0 : Vec F S512x512 .f32 := VO_r0.read (Elt F) VO_r0.junk

def soutA_at_r0 (c : Dev nD) (t : Fin cfg0.N) (h0 : t.val % 4 = 0) (h1 : ¬t.val % 4 = 3) : Vec F S512x512 .f32 :=
  sout_r0_A c (grid0.coords t) (ms_r0_0 t) (hs_r0_0 t) (ms_r0_1 t) (hs_r0_1 t) (ms_r0_2 t) (hs_r0_2 t) (ms_r0_3 t) (hs_r0_3 t) (ms_r0_4 t) (hs_r0_4 t) (ms_r0_5 t) (hs_r0_5 t) (ms_r0_6 t) (hs_r0_6 t) scM_r0 (Memref.isWhole_whole _) ((hcond_r0_0 t).mpr h0) (fun h => h1 ((hcond_r0_1 t).mp h))
    (iblk_r0 V c 0 t) (iblk_r0 V c 1 t) (iblk_r0 V c 2 t)

def soutB_at_r0 (c : Dev nD) (t : Fin cfg0.N) (h0 : ¬t.val % 4 = 0) (h1 : ¬t.val % 4 = 3) (xs0 : Vec F S512x512 .f32) : Vec F S512x512 .f32 :=
  sout_r0_B c (grid0.coords t) (ms_r0_0 t) (hs_r0_0 t) (ms_r0_1 t) (hs_r0_1 t) (ms_r0_2 t) (hs_r0_2 t) (ms_r0_3 t) (hs_r0_3 t) (ms_r0_4 t) (hs_r0_4 t) (ms_r0_5 t) (hs_r0_5 t) (ms_r0_6 t) (hs_r0_6 t) scM_r0 (Memref.isWhole_whole _) (fun h => h0 ((hcond_r0_0 t).mp h)) (fun h => h1 ((hcond_r0_1 t).mp h))
    (iblk_r0 V c 0 t) (iblk_r0 V c 1 t) (iblk_r0 V c 2 t) xs0

def outC_at_r0 (c : Dev nD) (t : Fin cfg0.N) (h0 : ¬t.val % 4 = 0) (h1 : t.val % 4 = 3) (xs0 : Vec F S512x512 .f32) : Vec F S512x512 .f32 :=
  out_r0_C c (grid0.coords t) (ms_r0_0 t) (hs_r0_0 t) (ms_r0_1 t) (hs_r0_1 t) (ms_r0_2 t) (hs_r0_2 t) (ms_r0_3 t) (hs_r0_3 t) (ms_r0_4 t) (hs_r0_4 t) (ms_r0_5 t) (hs_r0_5 t) (ms_r0_6 t) (hs_r0_6 t) scM_r0 (Memref.isWhole_whole _) (fun h => h0 ((hcond_r0_0 t).mp h)) ((hcond_r0_1 t).mpr h1)
    (iblk_r0 V c 0 t) (iblk_r0 V c 1 t) (iblk_r0 V c 2 t) (iblk_r0 V c 3 t) (iblk_r0 V c 4 t) (iblk_r0 V c 5 t) xs0

def soutC_at_r0 (c : Dev nD) (t : Fin cfg0.N) (h0 : ¬t.val % 4 = 0) (h1 : t.val % 4 = 3) (xs0 : Vec F S512x512 .f32) : Vec F S512x512 .f32 :=
  sout_r0_C c (grid0.coords t) (ms_r0_0 t) (hs_r0_0 t) (ms_r0_1 t) (hs_r0_1 t) (ms_r0_2 t) (hs_r0_2 t) (ms_r0_3 t) (hs_r0_3 t) (ms_r0_4 t) (hs_r0_4 t) (ms_r0_5 t) (hs_r0_5 t) (ms_r0_6 t) (hs_r0_6 t) scM_r0 (Memref.isWhole_whole _) (fun h => h0 ((hcond_r0_0 t).mp h)) ((hcond_r0_1 t).mpr h1)
    (iblk_r0 V c 0 t) (iblk_r0 V c 1 t) (iblk_r0 V c 2 t) (iblk_r0 V c 3 t) (iblk_r0 V c 4 t) (iblk_r0 V c 5 t) xs0

-- The output block and the accumulator after point n, by the residue of n modulo 4 (first, middle or last slab).
def outsAt_r0 (c : Dev nD) : (n : ℕ) → n < cfg0.N → Vec F S512x512 .f32 × Vec F S512x512 .f32
  | 0, hn => (idleOut_r0, soutA_at_r0 V c ⟨0, hn⟩ (Nat.zero_mod _) (by show ¬ 0 % 4 = 3; decide))
  | n + 1, hn =>
    if h0 : (n + 1) % 4 = 0 then
      (idleOut_r0, soutA_at_r0 V c ⟨n + 1, hn⟩ h0 (by show ¬ (n + 1) % 4 = 3; omega))
    else
      if h1 : (n + 1) % 4 = 3 then
        (outC_at_r0 V c ⟨n + 1, hn⟩ h0 h1 (outsAt_r0 c n (Nat.lt_of_succ_lt hn)).2, soutC_at_r0 V c ⟨n + 1, hn⟩ h0 h1 (outsAt_r0 c n (Nat.lt_of_succ_lt hn)).2)
      else
        (idleOut_r0, soutB_at_r0 V c ⟨n + 1, hn⟩ h0 h1 (outsAt_r0 c n (Nat.lt_of_succ_lt hn)).2)

theorem outsAt_r0_A (c : Dev nD) (t : Fin cfg0.N) (h0 : t.val % 4 = 0) (h1 : ¬t.val % 4 = 3) :
    outsAt_r0 V c t.val t.isLt = (idleOut_r0, soutA_at_r0 V c t h0 h1) := by
  obtain ⟨n, hn⟩ := t
  cases n with
  | zero => exact rfl
  | succ n => exact (dif_pos h0).trans rfl

theorem outsAt_r0_B (c : Dev nD) (t : Fin cfg0.N) (h0 : ¬t.val % 4 = 0) (h1 : ¬t.val % 4 = 3) :
    outsAt_r0 V c t.val t.isLt = (idleOut_r0, soutB_at_r0 V c t h0 h1 (outsAt_r0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_r0_C (c : Dev nD) (t : Fin cfg0.N) (h0 : ¬t.val % 4 = 0) (h1 : t.val % 4 = 3) :
    outsAt_r0 V c t.val t.isLt = (outC_at_r0 V c t h0 h1 (outsAt_r0 V c (t.val - 1) (Nat.lt_of_le_of_lt (Nat.sub_le _ _) t.isLt)).2, soutC_at_r0 V c t h0 h1 (outsAt_r0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS_r0 (c : Dev nD) : (n : ℕ) → n ≤ cfg0.N → sProp 𝕄
  | 0, _ => Pipeline.ΦA spec0 c
  | n + 1, hn => iprop(iprop(owns (c : Thread nD τ) scM_r0 fullShare ((outsAt_r0 V c n hn).2) ∗ restBut_r0 c) ∗ (∃ r, prngReg c r))

theorem PhiS_r0_zero (c : Dev nD) (n : ℕ) (h : n ≤ cfg0.N) (hz : n = 0) : PhiS_r0 V c n h = Pipeline.ΦA spec0 c := by
  subst hz; rfl

theorem PhiS_r0_succ (c : Dev nD) (n : ℕ) (hn : n < cfg0.N) :
    PhiS_r0 V c (n + 1) hn = iprop(iprop(owns (c : Thread nD τ) scM_r0 fullShare ((outsAt_r0 V c n hn).2) ∗ restBut_r0 c) ∗ (∃ r, prngReg c r)) := rfl

theorem PhiS_r0_pos (c : Dev nD) (n : ℕ) (h : n ≤ cfg0.N) (hz : n ≠ 0) :
    PhiS_r0 V c n h = iprop(iprop(owns (c : Thread nD τ) scM_r0 fullShare ((outsAt_r0 V c (n - 1) (by omega)).2) ∗ restBut_r0 c) ∗ (∃ r, prngReg c r)) := by
  cases n with
  | zero => exact absurd rfl hz
  | succ n => rfl

theorem PhiS_r0_any (c : Dev nD) (n : ℕ) (h : n ≤ cfg0.N) :
    PhiS_r0 V c n h ⊢ iprop(iprop((∃ d, owns (c : Thread nD τ) scM_r0 fullShare d) ∗ restBut_r0 c) ∗ (∃ r, prngReg c r)) := by
  cases n with
  | zero => rw [PhiS_r0_zero V c 0 h rfl, PhiA_r0_eq]
  | succ n =>
    rw [PhiS_r0_succ]
    iintro ⟨⟨HS0, HR⟩, Hg⟩
    isplitl [HS0 HR]
    · isplitl [HS0]; · iexists _; iexact HS0
      iexact HR
    iexact Hg

def dat_r0 (c : Dev nD) : Dat τ (Elt F) Unit ℕ (UR sig nD τ) ℕ cfg0 c where
  A w := V c (Pipeline.arrRef spec0 w)
  after w t := match w with
    | ⟨0, _⟩ => iblk_r0 V c 0 t
    | ⟨1, _⟩ => iblk_r0 V c 1 t
    | ⟨2, _⟩ => iblk_r0 V c 2 t
    | ⟨3, _⟩ => iblk_r0 V c 3 t
    | ⟨4, _⟩ => iblk_r0 V c 4 t
    | ⟨5, _⟩ => iblk_r0 V c 5 t
    | ⟨6, _⟩ => (outsAt_r0 V c t.val t.isLt).1
  Φ t := PhiS_r0 V c t.val (Nat.le_of_lt_succ t.isLt)
  q _ := fullShare
  owed _ := 0

theorem A_eq_r0 (c : Dev nD) (w : Fin cfg0.W) : (dat_r0 V c).A w = V c (Pipeline.arrRef spec0 w) := by
  dsimp only [dat_r0]

theorem PhiS_r0_castSucc (c : Dev nD) (t : Fin cfg0.N) :
    (dat_r0 V c).Φ t.castSucc = PhiS_r0 V c t.val (Nat.le_of_lt t.isLt) := by
  dsimp only [dat_r0]; simp only [Fin.coe_castSucc]

section
variable (c : Dev nD) (t : Fin cfg0.N)

theorem after_r0_0 : (dat_r0 V c).after 0 t = iblk_r0 V c 0 t := rfl
theorem after_r0_1 : (dat_r0 V c).after 1 t = iblk_r0 V c 1 t := rfl
theorem after_r0_2 : (dat_r0 V c).after 2 t = iblk_r0 V c 2 t := rfl
theorem after_r0_3 : (dat_r0 V c).after 3 t = iblk_r0 V c 3 t := rfl
theorem after_r0_4 : (dat_r0 V c).after 4 t = iblk_r0 V c 4 t := rfl
theorem after_r0_5 : (dat_r0 V c).after 5 t = iblk_r0 V c 5 t := rfl
theorem after_r0_6 : (dat_r0 V c).after 6 t = (outsAt_r0 V c t.val t.isLt).1 := rfl

theorem before_r0_0 (d) : (dat_r0 V c).before 0 t d = iblk_r0 V c 0 t :=
  ((dat_r0 V c).before_in_eq_fetched 0 rfl (fun _ => rfl) (fun _ _ _ => rfl) (fun _ => rfl) t d).trans rfl
theorem before_r0_1 (d) : (dat_r0 V c).before 1 t d = iblk_r0 V c 1 t :=
  ((dat_r0 V c).before_in_eq_fetched 1 rfl (fun _ => rfl) (fun _ _ _ => rfl) (fun _ => rfl) t d).trans rfl
theorem before_r0_2 (d) : (dat_r0 V c).before 2 t d = iblk_r0 V c 2 t :=
  ((dat_r0 V c).before_in_eq_fetched 2 rfl (fun _ => rfl) (fun _ _ _ => rfl) (fun _ => rfl) t d).trans rfl
theorem before_r0_3 (d) : (dat_r0 V c).before 3 t d = iblk_r0 V c 3 t :=
  ((dat_r0 V c).before_in_eq_fetched 3 rfl (fun _ => rfl) (fun _ _ _ => rfl) (fun _ => rfl) t d).trans rfl
theorem before_r0_4 (d) : (dat_r0 V c).before 4 t d = iblk_r0 V c 4 t :=
  ((dat_r0 V c).before_in_eq_fetched 4 rfl (fun _ => rfl) (fun _ _ _ => rfl) (fun _ => rfl) t d).trans rfl
theorem before_r0_5 (d) : (dat_r0 V c).before 5 t d = iblk_r0 V c 5 t :=
  ((dat_r0 V c).before_in_eq_fetched 5 rfl (fun _ => rfl) (fun _ _ _ => rfl) (fun _ => rfl) t d).trans rfl
end

end Cert.KernelIdeal.Hand

end
-- ==== Proof.LibDat.lean ====
import Idealize.ShloMosaic.Lib.Pipeline.FrameBody

namespace Idealize.ShloMosaic.Pipeline

open Idealize.SL Idealize.SL.BI Idealize.SL.RA Idealize.ShloMosaic.TcCoe
open scoped Idealize.SL.BI

variable {nD : Nat} {τ : Topo} {sig : RefSig} {Val : EltTy → Type} {Λ₀ : SL.Sem.Labels}
  {Ix : Type} [DecidableEq Ix] {Name : Type} [DecidableEq Name] {U : Type} [URA U] {Lvl : Type}
  {cfg : Cfg sig Λ₀} {c : Dev nD}

/-- `leavesExact` at a point where the window is not idle is its `after` case. -/
theorem Dat.leavesExact_live (dat : Dat τ Val Ix Name U Lvl cfg c) (w : Fin cfg.W) (t : Fin cfg.N)
    (h : cfg.idle w (cfg.grid.coords t) = false) :
    dat.leavesExact w t = owns c ((cfg.win w).stage (cfg.slots t w)) fullShare (dat.after w t) := by
  unfold Dat.leavesExact; rw [h]

end Idealize.ShloMosaic.Pipeline
-- ==== Proof.KernelIdeal.R0.Body.lean ====
import proofs.«128115_j49460843381367_1_alg».proof.Proof.KernelIdeal.R0.Frame
import proofs.«128115_j49460843381367_1_alg».proof.Proof.LibDat

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre_r0 (c : Dev nD) (t : Fin cfg0.N) : sProp 𝕄 :=
  iprop((dat_r0 V c).Φ t.castSucc ∗ (dat_r0 V c).owesAt () t.castSucc
    ∗ (∃ d, owns (c : Thread nD τ) (ms_r0_0 t) fullShare ((dat_r0 V c).before 0 t d))
    ∗ (∃ d, owns (c : Thread nD τ) (ms_r0_1 t) fullShare ((dat_r0 V c).before 1 t d))
    ∗ (∃ d, owns (c : Thread nD τ) (ms_r0_2 t) fullShare ((dat_r0 V c).before 2 t d))
    ∗ (∃ d, owns (c : Thread nD τ) (ms_r0_3 t) fullShare ((dat_r0 V c).before 3 t d))
    ∗ (∃ d, owns (c : Thread nD τ) (ms_r0_4 t) fullShare ((dat_r0 V c).before 4 t d))
    ∗ (∃ d, owns (c : Thread nD τ) (ms_r0_5 t) fullShare ((dat_r0 V c).before 5 t d))
    ∗ (∃ d, owns (c : Thread nD τ) (ms_r0_6 t) fullShare ((dat_r0 V c).before 6 t d)))

def bodyPost_r0 (c : Dev nD) (t : Fin cfg0.N) : sProp 𝕄 :=
  iprop((dat_r0 V c).Φ t.succ ∗ (dat_r0 V c).owesAt () t.succ
    ∗ (dat_r0 V c).leavesExact 0 t
    ∗ (dat_r0 V c).leavesExact 1 t
    ∗ (dat_r0 V c).leavesExact 2 t
    ∗ (dat_r0 V c).leavesExact 3 t
    ∗ (dat_r0 V c).leavesExact 4 t
    ∗ (dat_r0 V c).leavesExact 5 t
    ∗ (dat_r0 V c).leavesExact 6 t)

set_option maxHeartbeats 8000000 in
theorem sound_body_r0 (c : Dev nD) (t : Fin cfg0.N) :
    bodyPre_r0 V c t ⊢ wp frame (wpE (defs₀ (F := F)) Variants.none c none) Set.univ (bodyAt0 t) (fun _ => bodyPost_r0 V c t) := by
  unfold bodyPre_r0 bodyPost_r0 bodyAt0
  simp only [before_r0_0, before_r0_1, before_r0_2, before_r0_3, before_r0_4, before_r0_5]
  rw [show (dat_r0 V c).owesAt () t.succ = (dat_r0 V c).owesAt () t.castSucc from rfl]
  rw [show (dat_r0 V c).Φ t.succ = PhiS_r0 V c (t.val + 1) t.isLt from rfl, PhiS_r0_succ]
  have hN : t.val < 256 := lt_of_lt_of_eq t.isLt (show cfg0.N = 256 from N_0)
  rw [Dat.leavesExact_live _ 0 t (live_r0 0 t (by decide)), after_r0_0,
    Dat.leavesExact_live _ 1 t (live_r0 1 t (by decide)), after_r0_1,
    Dat.leavesExact_live _ 2 t (live_r0 2 t (by decide)), after_r0_2,
    Dat.leavesExact_live _ 3 t (live_r0 3 t (by decide)), after_r0_3,
    Dat.leavesExact_live _ 4 t (live_r0 4 t (by decide)), after_r0_4,
    Dat.leavesExact_live _ 5 t (live_r0 5 t (by decide)), after_r0_5]
  by_cases h0 : t.val % 4 = 0
  · by_cases h1 : t.val % 4 = 3
    · exfalso; omega
    ·
      rw [Dat.leavesExact_idle (dat_r0 V c) 6 t (idleAt_r0_6 t (fun h => h1 ((hcond_r0_1 t).mp h))) (noFlush_r0_6 t (fun h => h1 ((hcond_r0_1 t).mp h)))]
      rw [outsAt_r0_A V c t h0 h1]
      unfold soutA_at_r0 sout_r0_A; (try dsimp only)
      rw [PhiS_r0_castSucc V c t]
      iintro ⟨HP, Ho, ⟨%d0, H0⟩, ⟨%d1, H1⟩, ⟨%d2, H2⟩, ⟨%d3, H3⟩, ⟨%d4, H4⟩, ⟨%d5, H5⟩, ⟨%d6, H6⟩⟩
      ihave HP := (PhiS_r0_any V c _ _) $$ HP
      icases HP with ⟨⟨HS0, HR⟩, Hg⟩
      iapply ((kernelRun_r0_A c (grid0.coords t) _ _ _ _ _ _ _ _ _ _ _ _ _ _ _ _ ((hcond_r0_0 t).mpr h0) (fun h => h1 ((hcond_r0_1 t).mp h)) (iblk_r0 V c 0 t) (iblk_r0 V c 1 t) (iblk_r0 V c 2 t)).2 Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_r0_A c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · by_cases h1 : t.val % 4 = 3
    ·
      rw [show (dat_r0 V c).leavesExact 6 t = owns (c : Thread nD τ) (ms_r0_6 t) fullShare ((dat_r0 V c).after 6 t) from by
        unfold Dat.leavesExact; rw [liveAt_r0_6 t ((hcond_r0_1 t).mpr h1)], after_r0_6]
      rw [outsAt_r0_C V c t h0 h1]
      unfold outC_at_r0 soutC_at_r0 out_r0_C sout_r0_C; (try dsimp only)
      have hz : t.val ≠ 0 := by omega
      rw [PhiS_r0_castSucc V c t, PhiS_r0_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun_r0_C c (grid0.coords t) _ _ _ _ _ _ _ _ _ _ _ _ _ _ _ _ (fun h => h0 ((hcond_r0_0 t).mp h)) ((hcond_r0_1 t).mpr h1) (iblk_r0 V c 0 t) (iblk_r0 V c 1 t) (iblk_r0 V c 2 t) (iblk_r0 V c 3 t) (iblk_r0 V c 4 t) (iblk_r0 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_r0_C c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover_r0_C c _ _ _ _ _ _ _ _ _ _ _ _ _ _ _ _ _ _ _ _ _ _ _ _ _ _)
    ·
      rw [Dat.leavesExact_idle (dat_r0 V c) 6 t (idleAt_r0_6 t (fun h => h1 ((hcond_r0_1 t).mp h))) (noFlush_r0_6 t (fun h => h1 ((hcond_r0_1 t).mp h)))]
      rw [outsAt_r0_B V c t h0 h1]
      unfold soutB_at_r0 sout_r0_B; (try dsimp only)
      have hz : t.val ≠ 0 := by omega
      rw [PhiS_r0_castSucc V c t, PhiS_r0_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun_r0_B c (grid0.coords t) _ _ _ _ _ _ _ _ _ _ _ _ _ _ _ _ (fun h => h0 ((hcond_r0_0 t).mp h)) (fun h => h1 ((hcond_r0_1 t).mp h)) (iblk_r0 V c 0 t) (iblk_r0 V c 1 t) (iblk_r0 V c 2 t) _).2 Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_r0_B c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation_r0 (c : Dev nD) : BodyObligation (dat_r0 (F := F) V c) (defs₀ (F := F)) Variants.none () Set.univ := fun t => by
  rw [bigSep_W0, bigSep_W0]
  exact sound_body_r0 V c t

theorem hin_r0 (c : Dev nD) : Pipeline.ΦA spec0 c ⊢ (dat_r0 V c).Φ 0 := by
  rw [show (dat_r0 V c).Φ 0 = PhiS_r0 V c 0 (Nat.zero_le _) from rfl, PhiS_r0_zero V c 0 _ rfl]
  try exact Idealize.SL.BI.Entails.refl _

theorem hout_r0 (c : Dev nD) : (dat_r0 V c).Φ (Fin.last cfg0.N) ⊢ Pipeline.ΦA spec0 c := by
  rw [PhiA_r0_eq]; exact PhiS_r0_any V c (Fin.last cfg0.N).val (Nat.le_of_lt_succ (Fin.last cfg0.N).isLt)

end Cert.KernelIdeal.Hand

end
-- ==== Proof.KernelIdeal.R1.Runs.lean ====
import proofs.«128115_j49460843381367_1_alg».proof.Proof.Gen.KernelIdeal.Launch
import proofs.«128115_j49460843381367_1_alg».proof.Proof.Gen.KernelIdeal.Skeleton
import proofs.«128115_j49460843381367_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk_r1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- The grid's last coordinate k walks the contraction in four slabs: k = 0 is the first slab, k = 3 the last.
abbrev cond_r1_0 (i : grid1.Coords) : Prop := (Scalar.cmpi .ne (Scalar.extui (Scalar.cmpi .eq (BitVec.ofNat 32 (i 2).val) 0#32)) 0#32) = 1#1
theorem hcond_r1_0 : ∀ t : Fin cfg1.N, cond_r1_0 (grid1.coords t) ↔ t.val % 4 = 0 :=
  (by decide +kernel : ∀ t : Fin grid1.N, cond_r1_0 (grid1.coords t) ↔ t.val % 4 = 0)

abbrev cond_r1_1 (i : grid1.Coords) : Prop := k1_cond2 i = 1#1
theorem hcond_r1_1 : ∀ t : Fin cfg1.N, cond_r1_1 (grid1.coords t) ↔ t.val % 4 = 3 :=
  (by decide +kernel : ∀ t : Fin grid1.N, cond_r1_1 (grid1.coords t) ↔ t.val % 4 = 3)

theorem live_r1 : ∀ (w : Fin cfg1.W) (t : Fin cfg1.N), w ≠ 6 → cfg1.idle w (grid1.coords t) = false := by decide +kernel

theorem idleAt_r1_6 : ∀ t : Fin cfg1.N, ¬cond_r1_1 (grid1.coords t) → cfg1.idle 6 (grid1.coords t) = true := by decide +kernel
theorem noFlush_r1_6 : ∀ t : Fin cfg1.N, ¬cond_r1_1 (grid1.coords t) → (cfg1.win 6).flush t = false := by decide +kernel

theorem liveAt_r1_6 : ∀ t : Fin cfg1.N, cond_r1_1 (grid1.coords t) → cfg1.idle 6 (grid1.coords t) = false := by decide +kernel

abbrev ms_r1_0 (t : Fin cfg1.N) : Memref sig .tc .vmem S512x1024 .f32 := win1_0.stage (cfg1.slots t 0)
abbrev hs_r1_0 (t : Fin cfg1.N) : (ms_r1_0 t).IsWhole := hstage1_0 ((cfg1.slots t 0).cast nbuf1_0)
abbrev ms_r1_1 (t : Fin cfg1.N) : Memref sig .tc .vmem S512x1024 .f32 := win1_1.stage (cfg1.slots t 1)
abbrev hs_r1_1 (t : Fin cfg1.N) : (ms_r1_1 t).IsWhole := hstage1_1 ((cfg1.slots t 1).cast nbuf1_1)
abbrev ms_r1_2 (t : Fin cfg1.N) : Memref sig .tc .vmem S512x1024 .f32 := win1_2.stage (cfg1.slots t 2)
abbrev hs_r1_2 (t : Fin cfg1.N) : (ms_r1_2 t).IsWhole := hstage1_2 ((cfg1.slots t 2).cast nbuf1_2)
abbrev ms_r1_3 (t : Fin cfg1.N) : Memref sig .tc .vmem S1x512 .f32 := win1_3.stage (cfg1.slots t 3)
abbrev hs_r1_3 (t : Fin cfg1.N) : (ms_r1_3 t).IsWhole := hstage1_3 ((cfg1.slots t 3).cast nbuf1_3)
abbrev ms_r1_4 (t : Fin cfg1.N) : Memref sig .tc .vmem S1x512 .f32 := win1_4.stage (cfg1.slots t 4)
abbrev hs_r1_4 (t : Fin cfg1.N) : (ms_r1_4 t).IsWhole := hstage1_4 ((cfg1.slots t 4).cast nbuf1_4)
abbrev ms_r1_5 (t : Fin cfg1.N) : Memref sig .tc .vmem S512x512 .f32 := win1_5.stage (cfg1.slots t 5)
abbrev hs_r1_5 (t : Fin cfg1.N) : (ms_r1_5 t).IsWhole := hstage1_5 ((cfg1.slots t 5).cast nbuf1_5)
abbrev ms_r1_6 (t : Fin cfg1.N) : Memref sig .tc .vmem S512x512 .f32 := win1_6.stage (cfg1.slots t 6)
abbrev hs_r1_6 (t : Fin cfg1.N) : (ms_r1_6 t).IsWhole := hstage1_6 ((cfg1.slots t 6).cast nbuf1_6)

abbrev scM_r1 : Memref sig .tc .vmem S512x512 .f32 := Memref.whole cc1_scratch0
abbrev VS_r1 : View sig .tc .vmem S512x512 .f32 := scM_r1.view

abbrev VO_r1 : View sig .tc .vmem S512x512 .f32 := (Memref.whole cc1_stg6_0 : Memref sig .tc .vmem S512x512 .f32).view

abbrev restBut_r1 (c : Dev nD) : sProp 𝕄 :=
  Pipeline.scopedRestBut (Ix := Unit) (Name := ℕ) (U := UR sig nD τ) (Lvl := ℕ) (Val := Elt F) spec1 c [cc1_scratch0]

theorem PhiA_r1_eq (c : Dev nD) :
    (Pipeline.ΦA spec1 c : sProp 𝕄)
      = iprop(iprop((∃ d, owns (c : Thread nD τ) scM_r1 fullShare d) ∗ restBut_r1 c) ∗ (∃ r, prngReg c r)) := by
  unfold Pipeline.ΦA; rw [scopedRest1_split]; simp only [scM_r1, owns_whole]; try rfl

end Cert.KernelIdeal.Hand

end
-- ==== Proof.KernelIdeal.R1.Run.lean ====
import proofs.«128115_j49460843381367_1_alg».proof.Proof.KernelIdeal.R1.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (c : Dev nD) (i : grid1.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole)
  (arg6 : Memref sig .tc .vmem S1x512 .f32) (harg6 : arg6.IsWhole) (arg7 : Memref sig .tc .vmem S1x512 .f32) (harg7 : arg7.IsWhole) (arg8 : Memref sig .tc .vmem S512x512 .f32) (harg8 : arg8.IsWhole)
  (arg9 : Memref sig .tc .vmem S512x512 .f32) (harg9 : arg9.IsWhole) (arg10 : Memref sig .tc .vmem S512x512 .f32) (harg10 : arg10.IsWhole)

set_option maxHeartbeats 4000000 in
noncomputable def kernelRun_r1_A (hc0 : cond_r1_0 i) (hc1 : ¬cond_r1_1 i)
    (x0 x1 x2 : Vec F S512x1024 .f32) :
    { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ (∃ f, arg10.view.loc (c : Thread nD τ) ↦[arg10.view.set]{fullShare} arg10.view.writes (Elt F) f LS0)) -∗ K ⟨⟩))
          ⊢ wp frame (wpE (defs₀ (F := F)) Variants.none c none) E (cc1__scm_mlp_layer_kernel i arg3 harg3 arg4 harg4 arg5 harg5 arg6 harg6 arg7 harg7 arg8 harg8 arg9 harg9 arg10 harg10) K } := by
  refine ⟨?_, fun E K => ?run⟩
  case run =>
    simp only [cc1__scm_mlp_layer_kernel_eq_skeleton]; unfold cc1__scm_mlp_layer_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 4000000 in
noncomputable def kernelRun_r1_B (hc0 : ¬cond_r1_0 i) (hc1 : ¬cond_r1_1 i)
    (x0 x1 x2 : Vec F S512x1024 .f32) (xs0 : Vec F S512x512 .f32) :
    { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg10 fullShare xs0
            ∗ (iprop(owns (c : Thread nD τ) arg3 fullShare x0 ∗ owns (c : Thread nD τ) arg4 fullShare x1 ∗ owns (c : Thread nD τ) arg5 fullShare x2 ∗ (∃ f, arg10.view.loc (c : Thread nD τ) ↦[arg10.view.set]{fullShare} arg10.view.writes (Elt F) f LS0)) -∗ K ⟨⟩))
          ⊢ wp frame (wpE (defs₀ (F := F)) Variants.none c none) E (cc1__scm_mlp_layer_kernel i arg3 harg3 arg4 harg4 arg5 harg5 arg6 harg6 arg7 harg7 arg8 harg8 arg9 harg9 arg10 harg10) K } := by
  refine ⟨?_, fun E K => ?run⟩
  case run =>
    simp only [cc1__scm_mlp_layer_kernel_eq_skeleton]; unfold cc1__scm_mlp_layer_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 4000000 in
noncomputable def kernelRun_r1_C (hc0 : ¬cond_r1_0 i) (hc1 : cond_r1_1 i)
    (x0 x1 x2 : Vec F S512x1024 .f32) (x3 x4 : Vec F S1x512 .f32) (x5 : Vec F S512x512 .f32) (xs0 : Vec F S512x512 .f32) :
    Σ' (L6 : List (View.Piece (Elt F) S512x512 .f32)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc1__scm_mlp_layer_kernel i arg3 harg3 arg4 harg4 arg5 harg5 arg6 harg6 arg7 harg7 arg8 harg8 arg9 harg9 arg10 harg10) K } := by
  refine ⟨?_, ?_, fun E K => ?run⟩
  case run =>
    simp only [cc1__scm_mlp_layer_kernel_eq_skeleton]; unfold cc1__scm_mlp_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0
end

end Cert.KernelIdeal.Hand

end
-- ==== Proof.KernelIdeal.R1.Frame.lean ====
import proofs.«128115_j49460843381367_1_alg».proof.Proof.KernelIdeal.R1.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid1.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole)
  (arg6 : Memref sig .tc .vmem S1x512 .f32) (harg6 : arg6.IsWhole) (arg7 : Memref sig .tc .vmem S1x512 .f32) (harg7 : arg7.IsWhole) (arg8 : Memref sig .tc .vmem S512x512 .f32) (harg8 : arg8.IsWhole)
  (arg9 : Memref sig .tc .vmem S512x512 .f32) (harg9 : arg9.IsWhole) (arg10 : Memref sig .tc .vmem S512x512 .f32) (harg10 : arg10.IsWhole)

section
variable (hc0 : cond_r1_0 i) (hc1 : ¬cond_r1_1 i) (x0 x1 x2 : Vec F S512x1024 .f32)

theorem scover_r1_A (y : S512x512.Idx) : ∃ pc ∈ (kernelRun_r1_A c i arg3 harg3 arg4 harg4 arg5 harg5 arg6 harg6 arg7 harg7 arg8 harg8 arg9 harg9 arg10 harg10 hc0 hc1 x0 x1 x2).1, y ∈ pc.1.set :=
  View.cover_of_tiledL _ S512x512.size (by sl_kernel_rfl) y

def sout_r1_A : Vec F S512x512 .f32 :=
  VS_r1.read (Elt F) (VS_r1.writes (Elt F) VS_r1.junk (kernelRun_r1_A c i arg3 harg3 arg4 harg4 arg5 harg5 arg6 harg6 arg7 harg7 arg8 harg8 arg9 harg9 arg10 harg10 hc0 hc1 x0 x1 x2).1)
end

section
variable (hc0 : ¬cond_r1_0 i) (hc1 : ¬cond_r1_1 i) (x0 x1 x2 : Vec F S512x1024 .f32) (xs0 : Vec F S512x512 .f32)

theorem scover_r1_B (y : S512x512.Idx) : ∃ pc ∈ (kernelRun_r1_B c i arg3 harg3 arg4 harg4 arg5 harg5 arg6 harg6 arg7 harg7 arg8 harg8 arg9 harg9 arg10 harg10 hc0 hc1 x0 x1 x2 xs0).1, y ∈ pc.1.set :=
  View.cover_of_tiledL _ S512x512.size (by sl_kernel_rfl) y

def sout_r1_B : Vec F S512x512 .f32 :=
  VS_r1.read (Elt F) (VS_r1.writes (Elt F) VS_r1.junk (kernelRun_r1_B c i arg3 harg3 arg4 harg4 arg5 harg5 arg6 harg6 arg7 harg7 arg8 harg8 arg9 harg9 arg10 harg10 hc0 hc1 x0 x1 x2 xs0).1)
end

section
variable (hc0 : ¬cond_r1_0 i) (hc1 : cond_r1_1 i) (x0 x1 x2 : Vec F S512x1024 .f32) (x3 x4 : Vec F S1x512 .f32) (x5 xs0 : Vec F S512x512 .f32)

theorem cover_r1_C (y : S512x512.Idx) : ∃ pc ∈ (kernelRun_r1_C c i arg3 harg3 arg4 harg4 arg5 harg5 arg6 harg6 arg7 harg7 arg8 harg8 arg9 harg9 arg10 harg10 hc0 hc1 x0 x1 x2 x3 x4 x5 xs0).1, y ∈ pc.1.set :=
  View.cover_of_tiledL _ S512x512.size (by sl_kernel_rfl) y

def out_r1_C : Vec F S512x512 .f32 :=
  VO_r1.read (Elt F) (VO_r1.writes (Elt F) VO_r1.junk (kernelRun_r1_C c i arg3 harg3 arg4 harg4 arg5 harg5 arg6 harg6 arg7 harg7 arg8 harg8 arg9 harg9 arg10 harg10 hc0 hc1 x0 x1 x2 x3 x4 x5 xs0).1)

theorem scover_r1_C (y : S512x512.Idx) : ∃ pc ∈ (kernelRun_r1_C c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL _ S512x512.size (by sl_kernel_rfl) y

def sout_r1_C : Vec F S512x512 .f32 :=
  VS_r1.read (Elt F) (VS_r1.writes (Elt F) VS_r1.junk (kernelRun_r1_C c i arg3 harg3 arg4 harg4 arg5 harg5 arg6 harg6 arg7 harg7 arg8 harg8 arg9 harg9 arg10 harg10 hc0 hc1 x0 x1 x2 x3 x4 x5 xs0).2.1)
end
end

def idleOut_r1 : Vec F S512x512 .f32 := VO_r1.read (Elt F) VO_r1.junk

def soutA_at_r1 (c : Dev nD) (t : Fin cfg1.N) (h0 : t.val % 4 = 0) (h1 : ¬t.val % 4 = 3) : Vec F S512x512 .f32 :=
  sout_r1_A c (grid1.coords t) (ms_r1_0 t) (hs_r1_0 t) (ms_r1_1 t) (hs_r1_1 t) (ms_r1_2 t) (hs_r1_2 t) (ms_r1_3 t) (hs_r1_3 t) (ms_r1_4 t) (hs_r1_4 t) (ms_r1_5 t) (hs_r1_5 t) (ms_r1_6 t) (hs_r1_6 t) scM_r1 (Memref.isWhole_whole _) ((hcond_r1_0 t).mpr h0) (fun h => h1 ((hcond_r1_1 t).mp h))
    (iblk_r1 V c 0 t) (iblk_r1 V c 1 t) (iblk_r1 V c 2 t)

def soutB_at_r1 (c : Dev nD) (t : Fin cfg1.N) (h0 : ¬t.val % 4 = 0) (h1 : ¬t.val % 4 = 3) (xs0 : Vec F S512x512 .f32) : Vec F S512x512 .f32 :=
  sout_r1_B c (grid1.coords t) (ms_r1_0 t) (hs_r1_0 t) (ms_r1_1 t) (hs_r1_1 t) (ms_r1_2 t) (hs_r1_2 t) (ms_r1_3 t) (hs_r1_3 t) (ms_r1_4 t) (hs_r1_4 t) (ms_r1_5 t) (hs_r1_5 t) (ms_r1_6 t) (hs_r1_6 t) scM_r1 (Memref.isWhole_whole _) (fun h => h0 ((hcond_r1_0 t).mp h)) (fun h => h1 ((hcond_r1_1 t).mp h))
    (iblk_r1 V c 0 t) (iblk_r1 V c 1 t) (iblk_r1 V c 2 t) xs0

def outC_at_r1 (c : Dev nD) (t : Fin cfg1.N) (h0 : ¬t.val % 4 = 0) (h1 : t.val % 4 = 3) (xs0 : Vec F S512x512 .f32) : Vec F S512x512 .f32 :=
  out_r1_C c (grid1.coords t) (ms_r1_0 t) (hs_r1_0 t) (ms_r1_1 t) (hs_r1_1 t) (ms_r1_2 t) (hs_r1_2 t) (ms_r1_3 t) (hs_r1_3 t) (ms_r1_4 t) (hs_r1_4 t) (ms_r1_5 t) (hs_r1_5 t) (ms_r1_6 t) (hs_r1_6 t) scM_r1 (Memref.isWhole_whole _) (fun h => h0 ((hcond_r1_0 t).mp h)) ((hcond_r1_1 t).mpr h1)
    (iblk_r1 V c 0 t) (iblk_r1 V c 1 t) (iblk_r1 V c 2 t) (iblk_r1 V c 3 t) (iblk_r1 V c 4 t) (iblk_r1 V c 5 t) xs0

def soutC_at_r1 (c : Dev nD) (t : Fin cfg1.N) (h0 : ¬t.val % 4 = 0) (h1 : t.val % 4 = 3) (xs0 : Vec F S512x512 .f32) : Vec F S512x512 .f32 :=
  sout_r1_C c (grid1.coords t) (ms_r1_0 t) (hs_r1_0 t) (ms_r1_1 t) (hs_r1_1 t) (ms_r1_2 t) (hs_r1_2 t) (ms_r1_3 t) (hs_r1_3 t) (ms_r1_4 t) (hs_r1_4 t) (ms_r1_5 t) (hs_r1_5 t) (ms_r1_6 t) (hs_r1_6 t) scM_r1 (Memref.isWhole_whole _) (fun h => h0 ((hcond_r1_0 t).mp h)) ((hcond_r1_1 t).mpr h1)
    (iblk_r1 V c 0 t) (iblk_r1 V c 1 t) (iblk_r1 V c 2 t) (iblk_r1 V c 3 t) (iblk_r1 V c 4 t) (iblk_r1 V c 5 t) xs0

-- The output block and the accumulator after point n, by the residue of n modulo 4 (first, middle or last slab).
def outsAt_r1 (c : Dev nD) : (n : ℕ) → n < cfg1.N → Vec F S512x512 .f32 × Vec F S512x512 .f32
  | 0, hn => (idleOut_r1, soutA_at_r1 V c ⟨0, hn⟩ (Nat.zero_mod _) (by show ¬ 0 % 4 = 3; decide))
  | n + 1, hn =>
    if h0 : (n + 1) % 4 = 0 then
      (idleOut_r1, soutA_at_r1 V c ⟨n + 1, hn⟩ h0 (by show ¬ (n + 1) % 4 = 3; omega))
    else
      if h1 : (n + 1) % 4 = 3 then
        (outC_at_r1 V c ⟨n + 1, hn⟩ h0 h1 (outsAt_r1 c n (Nat.lt_of_succ_lt hn)).2, soutC_at_r1 V c ⟨n + 1, hn⟩ h0 h1 (outsAt_r1 c n (Nat.lt_of_succ_lt hn)).2)
      else
        (idleOut_r1, soutB_at_r1 V c ⟨n + 1, hn⟩ h0 h1 (outsAt_r1 c n (Nat.lt_of_succ_lt hn)).2)

theorem outsAt_r1_A (c : Dev nD) (t : Fin cfg1.N) (h0 : t.val % 4 = 0) (h1 : ¬t.val % 4 = 3) :
    outsAt_r1 V c t.val t.isLt = (idleOut_r1, soutA_at_r1 V c t h0 h1) := by
  obtain ⟨n, hn⟩ := t
  cases n with
  | zero => exact rfl
  | succ n => exact (dif_pos h0).trans rfl

theorem outsAt_r1_B (c : Dev nD) (t : Fin cfg1.N) (h0 : ¬t.val % 4 = 0) (h1 : ¬t.val % 4 = 3) :
    outsAt_r1 V c t.val t.isLt = (idleOut_r1, soutB_at_r1 V c t h0 h1 (outsAt_r1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_r1_C (c : Dev nD) (t : Fin cfg1.N) (h0 : ¬t.val % 4 = 0) (h1 : t.val % 4 = 3) :
    outsAt_r1 V c t.val t.isLt = (outC_at_r1 V c t h0 h1 (outsAt_r1 V c (t.val - 1) (Nat.lt_of_le_of_lt (Nat.sub_le _ _) t.isLt)).2, soutC_at_r1 V c t h0 h1 (outsAt_r1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS_r1 (c : Dev nD) : (n : ℕ) → n ≤ cfg1.N → sProp 𝕄
  | 0, _ => Pipeline.ΦA spec1 c
  | n + 1, hn => iprop(iprop(owns (c : Thread nD τ) scM_r1 fullShare ((outsAt_r1 V c n hn).2) ∗ restBut_r1 c) ∗ (∃ r, prngReg c r))

theorem PhiS_r1_zero (c : Dev nD) (n : ℕ) (h : n ≤ cfg1.N) (hz : n = 0) : PhiS_r1 V c n h = Pipeline.ΦA spec1 c := by
  subst hz; rfl

theorem PhiS_r1_succ (c : Dev nD) (n : ℕ) (hn : n < cfg1.N) :
    PhiS_r1 V c (n + 1) hn = iprop(iprop(owns (c : Thread nD τ) scM_r1 fullShare ((outsAt_r1 V c n hn).2) ∗ restBut_r1 c) ∗ (∃ r, prngReg c r)) := rfl

theorem PhiS_r1_pos (c : Dev nD) (n : ℕ) (h : n ≤ cfg1.N) (hz : n ≠ 0) :
    PhiS_r1 V c n h = iprop(iprop(owns (c : Thread nD τ) scM_r1 fullShare ((outsAt_r1 V c (n - 1) (by omega)).2) ∗ restBut_r1 c) ∗ (∃ r, prngReg c r)) := by
  cases n with
  | zero => exact absurd rfl hz
  | succ n => rfl

theorem PhiS_r1_any (c : Dev nD) (n : ℕ) (h : n ≤ cfg1.N) :
    PhiS_r1 V c n h ⊢ iprop(iprop((∃ d, owns (c : Thread nD τ) scM_r1 fullShare d) ∗ restBut_r1 c) ∗ (∃ r, prngReg c r)) := by
  cases n with
  | zero => rw [PhiS_r1_zero V c 0 h rfl, PhiA_r1_eq]
  | succ n =>
    rw [PhiS_r1_succ]
    iintro ⟨⟨HS0, HR⟩, Hg⟩
    isplitl [HS0 HR]
    · isplitl [HS0]; · iexists _; iexact HS0
      iexact HR
    iexact Hg

def dat_r1 (c : Dev nD) : Dat τ (Elt F) Unit ℕ (UR sig nD τ) ℕ cfg1 c where
  A w := V c (Pipeline.arrRef spec1 w)
  after w t := match w with
    | ⟨0, _⟩ => iblk_r1 V c 0 t
    | ⟨1, _⟩ => iblk_r1 V c 1 t
    | ⟨2, _⟩ => iblk_r1 V c 2 t
    | ⟨3, _⟩ => iblk_r1 V c 3 t
    | ⟨4, _⟩ => iblk_r1 V c 4 t
    | ⟨5, _⟩ => iblk_r1 V c 5 t
    | ⟨6, _⟩ => (outsAt_r1 V c t.val t.isLt).1
  Φ t := PhiS_r1 V c t.val (Nat.le_of_lt_succ t.isLt)
  q _ := fullShare
  owed _ := 0

theorem A_eq_r1 (c : Dev nD) (w : Fin cfg1.W) : (dat_r1 V c).A w = V c (Pipeline.arrRef spec1 w) := by
  dsimp only [dat_r1]

theorem PhiS_r1_castSucc (c : Dev nD) (t : Fin cfg1.N) :
    (dat_r1 V c).Φ t.castSucc = PhiS_r1 V c t.val (Nat.le_of_lt t.isLt) := by
  dsimp only [dat_r1]; simp only [Fin.coe_castSucc]

section
variable (c : Dev nD) (t : Fin cfg1.N)

theorem after_r1_0 : (dat_r1 V c).after 0 t = iblk_r1 V c 0 t := rfl
theorem after_r1_1 : (dat_r1 V c).after 1 t = iblk_r1 V c 1 t := rfl
theorem after_r1_2 : (dat_r1 V c).after 2 t = iblk_r1 V c 2 t := rfl
theorem after_r1_3 : (dat_r1 V c).after 3 t = iblk_r1 V c 3 t := rfl
theorem after_r1_4 : (dat_r1 V c).after 4 t = iblk_r1 V c 4 t := rfl
theorem after_r1_5 : (dat_r1 V c).after 5 t = iblk_r1 V c 5 t := rfl
theorem after_r1_6 : (dat_r1 V c).after 6 t = (outsAt_r1 V c t.val t.isLt).1 := rfl

theorem before_r1_0 (d) : (dat_r1 V c).before 0 t d = iblk_r1 V c 0 t :=
  ((dat_r1 V c).before_in_eq_fetched 0 rfl (fun _ => rfl) (fun _ _ _ => rfl) (fun _ => rfl) t d).trans rfl
theorem before_r1_1 (d) : (dat_r1 V c).before 1 t d = iblk_r1 V c 1 t :=
  ((dat_r1 V c).before_in_eq_fetched 1 rfl (fun _ => rfl) (fun _ _ _ => rfl) (fun _ => rfl) t d).trans rfl
theorem before_r1_2 (d) : (dat_r1 V c).before 2 t d = iblk_r1 V c 2 t :=
  ((dat_r1 V c).before_in_eq_fetched 2 rfl (fun _ => rfl) (fun _ _ _ => rfl) (fun _ => rfl) t d).trans rfl
theorem before_r1_3 (d) : (dat_r1 V c).before 3 t d = iblk_r1 V c 3 t :=
  ((dat_r1 V c).before_in_eq_fetched 3 rfl (fun _ => rfl) (fun _ _ _ => rfl) (fun _ => rfl) t d).trans rfl
theorem before_r1_4 (d) : (dat_r1 V c).before 4 t d = iblk_r1 V c 4 t :=
  ((dat_r1 V c).before_in_eq_fetched 4 rfl (fun _ => rfl) (fun _ _ _ => rfl) (fun _ => rfl) t d).trans rfl
theorem before_r1_5 (d) : (dat_r1 V c).before 5 t d = iblk_r1 V c 5 t :=
  ((dat_r1 V c).before_in_eq_fetched 5 rfl (fun _ => rfl) (fun _ _ _ => rfl) (fun _ => rfl) t d).trans rfl
end

end Cert.KernelIdeal.Hand

end
-- ==== Proof.KernelIdeal.R1.Body.lean ====
import proofs.«128115_j49460843381367_1_alg».proof.Proof.KernelIdeal.R1.Frame
import proofs.«128115_j49460843381367_1_alg».proof.Proof.LibDat

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre_r1 (c : Dev nD) (t : Fin cfg1.N) : sProp 𝕄 :=
  iprop((dat_r1 V c).Φ t.castSucc ∗ (dat_r1 V c).owesAt () t.castSucc
    ∗ (∃ d, owns (c : Thread nD τ) (ms_r1_0 t) fullShare ((dat_r1 V c).before 0 t d))
    ∗ (∃ d, owns (c : Thread nD τ) (ms_r1_1 t) fullShare ((dat_r1 V c).before 1 t d))
    ∗ (∃ d, owns (c : Thread nD τ) (ms_r1_2 t) fullShare ((dat_r1 V c).before 2 t d))
    ∗ (∃ d, owns (c : Thread nD τ) (ms_r1_3 t) fullShare ((dat_r1 V c).before 3 t d))
    ∗ (∃ d, owns (c : Thread nD τ) (ms_r1_4 t) fullShare ((dat_r1 V c).before 4 t d))
    ∗ (∃ d, owns (c : Thread nD τ) (ms_r1_5 t) fullShare ((dat_r1 V c).before 5 t d))
    ∗ (∃ d, owns (c : Thread nD τ) (ms_r1_6 t) fullShare ((dat_r1 V c).before 6 t d)))

def bodyPost_r1 (c : Dev nD) (t : Fin cfg1.N) : sProp 𝕄 :=
  iprop((dat_r1 V c).Φ t.succ ∗ (dat_r1 V c).owesAt () t.succ
    ∗ (dat_r1 V c).leavesExact 0 t
    ∗ (dat_r1 V c).leavesExact 1 t
    ∗ (dat_r1 V c).leavesExact 2 t
    ∗ (dat_r1 V c).leavesExact 3 t
    ∗ (dat_r1 V c).leavesExact 4 t
    ∗ (dat_r1 V c).leavesExact 5 t
    ∗ (dat_r1 V c).leavesExact 6 t)

set_option maxHeartbeats 8000000 in
theorem sound_body_r1 (c : Dev nD) (t : Fin cfg1.N) :
    bodyPre_r1 V c t ⊢ wp frame (wpE (defs₀ (F := F)) Variants.none c none) Set.univ (bodyAt1 t) (fun _ => bodyPost_r1 V c t) := by
  unfold bodyPre_r1 bodyPost_r1 bodyAt1
  simp only [before_r1_0, before_r1_1, before_r1_2, before_r1_3, before_r1_4, before_r1_5]
  rw [show (dat_r1 V c).owesAt () t.succ = (dat_r1 V c).owesAt () t.castSucc from rfl]
  rw [show (dat_r1 V c).Φ t.succ = PhiS_r1 V c (t.val + 1) t.isLt from rfl, PhiS_r1_succ]
  have hN : t.val < 256 := lt_of_lt_of_eq t.isLt (show cfg1.N = 256 from N_1)
  rw [Dat.leavesExact_live _ 0 t (live_r1 0 t (by decide)), after_r1_0,
    Dat.leavesExact_live _ 1 t (live_r1 1 t (by decide)), after_r1_1,
    Dat.leavesExact_live _ 2 t (live_r1 2 t (by decide)), after_r1_2,
    Dat.leavesExact_live _ 3 t (live_r1 3 t (by decide)), after_r1_3,
    Dat.leavesExact_live _ 4 t (live_r1 4 t (by decide)), after_r1_4,
    Dat.leavesExact_live _ 5 t (live_r1 5 t (by decide)), after_r1_5]
  by_cases h0 : t.val % 4 = 0
  · by_cases h1 : t.val % 4 = 3
    · exfalso; omega
    ·
      rw [Dat.leavesExact_idle (dat_r1 V c) 6 t (idleAt_r1_6 t (fun h => h1 ((hcond_r1_1 t).mp h))) (noFlush_r1_6 t (fun h => h1 ((hcond_r1_1 t).mp h)))]
      rw [outsAt_r1_A V c t h0 h1]
      unfold soutA_at_r1 sout_r1_A; (try dsimp only)
      rw [PhiS_r1_castSucc V c t]
      iintro ⟨HP, Ho, ⟨%d0, H0⟩, ⟨%d1, H1⟩, ⟨%d2, H2⟩, ⟨%d3, H3⟩, ⟨%d4, H4⟩, ⟨%d5, H5⟩, ⟨%d6, H6⟩⟩
      ihave HP := (PhiS_r1_any V c _ _) $$ HP
      icases HP with ⟨⟨HS0, HR⟩, Hg⟩
      iapply ((kernelRun_r1_A c (grid1.coords t) _ _ _ _ _ _ _ _ _ _ _ _ _ _ _ _ ((hcond_r1_0 t).mpr h0) (fun h => h1 ((hcond_r1_1 t).mp h)) (iblk_r1 V c 0 t) (iblk_r1 V c 1 t) (iblk_r1 V c 2 t)).2 Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_r1_A c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · by_cases h1 : t.val % 4 = 3
    ·
      rw [show (dat_r1 V c).leavesExact 6 t = owns (c : Thread nD τ) (ms_r1_6 t) fullShare ((dat_r1 V c).after 6 t) from by
        unfold Dat.leavesExact; rw [liveAt_r1_6 t ((hcond_r1_1 t).mpr h1)], after_r1_6]
      rw [outsAt_r1_C V c t h0 h1]
      unfold outC_at_r1 soutC_at_r1 out_r1_C sout_r1_C; (try dsimp only)
      have hz : t.val ≠ 0 := by omega
      rw [PhiS_r1_castSucc V c t, PhiS_r1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun_r1_C c (grid1.coords t) _ _ _ _ _ _ _ _ _ _ _ _ _ _ _ _ (fun h => h0 ((hcond_r1_0 t).mp h)) ((hcond_r1_1 t).mpr h1) (iblk_r1 V c 0 t) (iblk_r1 V c 1 t) (iblk_r1 V c 2 t) (iblk_r1 V c 3 t) (iblk_r1 V c 4 t) (iblk_r1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_r1_C c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover_r1_C c _ _ _ _ _ _ _ _ _ _ _ _ _ _ _ _ _ _ _ _ _ _ _ _ _ _)
    ·
      rw [Dat.leavesExact_idle (dat_r1 V c) 6 t (idleAt_r1_6 t (fun h => h1 ((hcond_r1_1 t).mp h))) (noFlush_r1_6 t (fun h => h1 ((hcond_r1_1 t).mp h)))]
      rw [outsAt_r1_B V c t h0 h1]
      unfold soutB_at_r1 sout_r1_B; (try dsimp only)
      have hz : t.val ≠ 0 := by omega
      rw [PhiS_r1_castSucc V c t, PhiS_r1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun_r1_B c (grid1.coords t) _ _ _ _ _ _ _ _ _ _ _ _ _ _ _ _ (fun h => h0 ((hcond_r1_0 t).mp h)) (fun h => h1 ((hcond_r1_1 t).mp h)) (iblk_r1 V c 0 t) (iblk_r1 V c 1 t) (iblk_r1 V c 2 t) _).2 Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_r1_B c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation_r1 (c : Dev nD) : BodyObligation (dat_r1 (F := F) V c) (defs₀ (F := F)) Variants.none () Set.univ := fun t => by
  rw [bigSep_W1, bigSep_W1]
  exact sound_body_r1 V c t

theorem hin_r1 (c : Dev nD) : Pipeline.ΦA spec1 c ⊢ (dat_r1 V c).Φ 0 := by
  rw [show (dat_r1 V c).Φ 0 = PhiS_r1 V c 0 (Nat.zero_le _) from rfl, PhiS_r1_zero V c 0 _ rfl]
  try exact Idealize.SL.BI.Entails.refl _

theorem hout_r1 (c : Dev nD) : (dat_r1 V c).Φ (Fin.last cfg1.N) ⊢ Pipeline.ΦA spec1 c := by
  rw [PhiA_r1_eq]; exact PhiS_r1_any V c (Fin.last cfg1.N).val (Nat.le_of_lt_succ (Fin.last cfg1.N).isLt)

end Cert.KernelIdeal.Hand

end
-- ==== Proof.KernelIdeal.R2.Runs.lean ====
import proofs.«128115_j49460843381367_1_alg».proof.Proof.Gen.KernelIdeal.Launch
import proofs.«128115_j49460843381367_1_alg».proof.Proof.Gen.KernelIdeal.Skeleton
import proofs.«128115_j49460843381367_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk_r2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

-- The grid's last coordinate k walks the contraction in four slabs: k = 0 is the first slab, k = 3 the last.
abbrev cond_r2_0 (i : grid2.Coords) : Prop := (Scalar.cmpi .ne (Scalar.extui (Scalar.cmpi .eq (BitVec.ofNat 32 (i 2).val) 0#32)) 0#32) = 1#1
theorem hcond_r2_0 : ∀ t : Fin cfg2.N, cond_r2_0 (grid2.coords t) ↔ t.val % 4 = 0 :=
  (by decide +kernel : ∀ t : Fin grid2.N, cond_r2_0 (grid2.coords t) ↔ t.val % 4 = 0)

abbrev cond_r2_1 (i : grid2.Coords) : Prop := k2_cond2 i = 1#1
theorem hcond_r2_1 : ∀ t : Fin cfg2.N, cond_r2_1 (grid2.coords t) ↔ t.val % 4 = 3 :=
  (by decide +kernel : ∀ t : Fin grid2.N, cond_r2_1 (grid2.coords t) ↔ t.val % 4 = 3)

theorem live_r2 : ∀ (w : Fin cfg2.W) (t : Fin cfg2.N), w ≠ 6 → cfg2.idle w (grid2.coords t) = false := by decide +kernel

theorem idleAt_r2_6 : ∀ t : Fin cfg2.N, ¬cond_r2_1 (grid2.coords t) → cfg2.idle 6 (grid2.coords t) = true := by decide +kernel
theorem noFlush_r2_6 : ∀ t : Fin cfg2.N, ¬cond_r2_1 (grid2.coords t) → (cfg2.win 6).flush t = false := by decide +kernel

theorem liveAt_r2_6 : ∀ t : Fin cfg2.N, cond_r2_1 (grid2.coords t) → cfg2.idle 6 (grid2.coords t) = false := by decide +kernel

abbrev ms_r2_0 (t : Fin cfg2.N) : Memref sig .tc .vmem S512x1024 .f32 := win2_0.stage (cfg2.slots t 0)
abbrev hs_r2_0 (t : Fin cfg2.N) : (ms_r2_0 t).IsWhole := hstage2_0 ((cfg2.slots t 0).cast nbuf2_0)
abbrev ms_r2_1 (t : Fin cfg2.N) : Memref sig .tc .vmem S512x1024 .f32 := win2_1.stage (cfg2.slots t 1)
abbrev hs_r2_1 (t : Fin cfg2.N) : (ms_r2_1 t).IsWhole := hstage2_1 ((cfg2.slots t 1).cast nbuf2_1)
abbrev ms_r2_2 (t : Fin cfg2.N) : Memref sig .tc .vmem S512x1024 .f32 := win2_2.stage (cfg2.slots t 2)
abbrev hs_r2_2 (t : Fin cfg2.N) : (ms_r2_2 t).IsWhole := hstage2_2 ((cfg2.slots t 2).cast nbuf2_2)
abbrev ms_r2_3 (t : Fin cfg2.N) : Memref sig .tc .vmem S1x512 .f32 := win2_3.stage (cfg2.slots t 3)
abbrev hs_r2_3 (t : Fin cfg2.N) : (ms_r2_3 t).IsWhole := hstage2_3 ((cfg2.slots t 3).cast nbuf2_3)
abbrev ms_r2_4 (t : Fin cfg2.N) : Memref sig .tc .vmem S1x512 .f32 := win2_4.stage (cfg2.slots t 4)
abbrev hs_r2_4 (t : Fin cfg2.N) : (ms_r2_4 t).IsWhole := hstage2_4 ((cfg2.slots t 4).cast nbuf2_4)
abbrev ms_r2_5 (t : Fin cfg2.N) : Memref sig .tc .vmem S512x512 .f32 := win2_5.stage (cfg2.slots t 5)
abbrev hs_r2_5 (t : Fin cfg2.N) : (ms_r2_5 t).IsWhole := hstage2_5 ((cfg2.slots t 5).cast nbuf2_5)
abbrev ms_r2_6 (t : Fin cfg2.N) : Memref sig .tc .vmem S512x512 .f32 := win2_6.stage (cfg2.slots t 6)
abbrev hs_r2_6 (t : Fin cfg2.N) : (ms_r2_6 t).IsWhole := hstage2_6 ((cfg2.slots t 6).cast nbuf2_6)

abbrev scM_r2 : Memref sig .tc .vmem S512x512 .f32 := Memref.whole cc2_scratch0
abbrev VS_r2 : View sig .tc .vmem S512x512 .f32 := scM_r2.view

abbrev VO_r2 : View sig .tc .vmem S512x512 .f32 := (Memref.whole cc2_stg6_0 : Memref sig .tc .vmem S512x512 .f32).view

abbrev restBut_r2 (c : Dev nD) : sProp 𝕄 :=
  Pipeline.scopedRestBut (Ix := Unit) (Name := ℕ) (U := UR sig nD τ) (Lvl := ℕ) (Val := Elt F) spec2 c [cc2_scratch0]

theorem PhiA_r2_eq (c : Dev nD) :
    (Pipeline.ΦA spec2 c : sProp 𝕄)
      = iprop(iprop((∃ d, owns (c : Thread nD τ) scM_r2 fullShare d) ∗ restBut_r2 c) ∗ (∃ r, prngReg c r)) := by
  unfold Pipeline.ΦA; rw [scopedRest2_split]; simp only [scM_r2, owns_whole]; try rfl

end Cert.KernelIdeal.Hand

end
-- ==== Proof.KernelIdeal.R2.Run.lean ====
import proofs.«128115_j49460843381367_1_alg».proof.Proof.KernelIdeal.R2.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (c : Dev nD) (i : grid2.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole)
  (arg6 : Memref sig .tc .vmem S1x512 .f32) (harg6 : arg6.IsWhole) (arg7 : Memref sig .tc .vmem S1x512 .f32) (harg7 : arg7.IsWhole) (arg8 : Memref sig .tc .vmem S512x512 .f32) (harg8 : arg8.IsWhole)
  (arg9 : Memref sig .tc .vmem S512x512 .f32) (harg9 : arg9.IsWhole) (arg10 : Memref sig .tc .vmem S512x512 .f32) (harg10 : arg10.IsWhole)

set_option maxHeartbeats 4000000 in
noncomputable def kernelRun_r2_A (hc0 : cond_r2_0 i) (hc1 : ¬cond_r2_1 i)
    (x0 x1 x2 : Vec F S512x1024 .f32) :
    { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ (∃ f, arg10.view.loc (c : Thread nD τ) ↦[arg10.view.set]{fullShare} arg10.view.writes (Elt F) f LS0)) -∗ K ⟨⟩))
          ⊢ wp frame (wpE (defs₀ (F := F)) Variants.none c none) E (cc2__scm_mlp_layer_kernel i arg3 harg3 arg4 harg4 arg5 harg5 arg6 harg6 arg7 harg7 arg8 harg8 arg9 harg9 arg10 harg10) K } := by
  refine ⟨?_, fun E K => ?run⟩
  case run =>
    simp only [cc2__scm_mlp_layer_kernel_eq_skeleton]; unfold cc2__scm_mlp_layer_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 4000000 in
noncomputable def kernelRun_r2_B (hc0 : ¬cond_r2_0 i) (hc1 : ¬cond_r2_1 i)
    (x0 x1 x2 : Vec F S512x1024 .f32) (xs0 : Vec F S512x512 .f32) :
    { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg10 fullShare xs0
            ∗ (iprop(owns (c : Thread nD τ) arg3 fullShare x0 ∗ owns (c : Thread nD τ) arg4 fullShare x1 ∗ owns (c : Thread nD τ) arg5 fullShare x2 ∗ (∃ f, arg10.view.loc (c : Thread nD τ) ↦[arg10.view.set]{fullShare} arg10.view.writes (Elt F) f LS0)) -∗ K ⟨⟩))
          ⊢ wp frame (wpE (defs₀ (F := F)) Variants.none c none) E (cc2__scm_mlp_layer_kernel i arg3 harg3 arg4 harg4 arg5 harg5 arg6 harg6 arg7 harg7 arg8 harg8 arg9 harg9 arg10 harg10) K } := by
  refine ⟨?_, fun E K => ?run⟩
  case run =>
    simp only [cc2__scm_mlp_layer_kernel_eq_skeleton]; unfold cc2__scm_mlp_layer_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 4000000 in
noncomputable def kernelRun_r2_C (hc0 : ¬cond_r2_0 i) (hc1 : cond_r2_1 i)
    (x0 x1 x2 : Vec F S512x1024 .f32) (x3 x4 : Vec F S1x512 .f32) (x5 : Vec F S512x512 .f32) (xs0 : Vec F S512x512 .f32) :
    Σ' (L6 : List (View.Piece (Elt F) S512x512 .f32)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc2__scm_mlp_layer_kernel i arg3 harg3 arg4 harg4 arg5 harg5 arg6 harg6 arg7 harg7 arg8 harg8 arg9 harg9 arg10 harg10) K } := by
  refine ⟨?_, ?_, fun E K => ?run⟩
  case run =>
    simp only [cc2__scm_mlp_layer_kernel_eq_skeleton]; unfold cc2__scm_mlp_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0
end

end Cert.KernelIdeal.Hand

end
-- ==== Proof.KernelIdeal.R2.Frame.lean ====
import proofs.«128115_j49460843381367_1_alg».proof.Proof.KernelIdeal.R2.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid2.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole)
  (arg6 : Memref sig .tc .vmem S1x512 .f32) (harg6 : arg6.IsWhole) (arg7 : Memref sig .tc .vmem S1x512 .f32) (harg7 : arg7.IsWhole) (arg8 : Memref sig .tc .vmem S512x512 .f32) (harg8 : arg8.IsWhole)
  (arg9 : Memref sig .tc .vmem S512x512 .f32) (harg9 : arg9.IsWhole) (arg10 : Memref sig .tc .vmem S512x512 .f32) (harg10 : arg10.IsWhole)

section
variable (hc0 : cond_r2_0 i) (hc1 : ¬cond_r2_1 i) (x0 x1 x2 : Vec F S512x1024 .f32)

theorem scover_r2_A (y : S512x512.Idx) : ∃ pc ∈ (kernelRun_r2_A c i arg3 harg3 arg4 harg4 arg5 harg5 arg6 harg6 arg7 harg7 arg8 harg8 arg9 harg9 arg10 harg10 hc0 hc1 x0 x1 x2).1, y ∈ pc.1.set :=
  View.cover_of_tiledL _ S512x512.size (by sl_kernel_rfl) y

def sout_r2_A : Vec F S512x512 .f32 :=
  VS_r2.read (Elt F) (VS_r2.writes (Elt F) VS_r2.junk (kernelRun_r2_A c i arg3 harg3 arg4 harg4 arg5 harg5 arg6 harg6 arg7 harg7 arg8 harg8 arg9 harg9 arg10 harg10 hc0 hc1 x0 x1 x2).1)
end

section
variable (hc0 : ¬cond_r2_0 i) (hc1 : ¬cond_r2_1 i) (x0 x1 x2 : Vec F S512x1024 .f32) (xs0 : Vec F S512x512 .f32)

theorem scover_r2_B (y : S512x512.Idx) : ∃ pc ∈ (kernelRun_r2_B c i arg3 harg3 arg4 harg4 arg5 harg5 arg6 harg6 arg7 harg7 arg8 harg8 arg9 harg9 arg10 harg10 hc0 hc1 x0 x1 x2 xs0).1, y ∈ pc.1.set :=
  View.cover_of_tiledL _ S512x512.size (by sl_kernel_rfl) y

def sout_r2_B : Vec F S512x512 .f32 :=
  VS_r2.read (Elt F) (VS_r2.writes (Elt F) VS_r2.junk (kernelRun_r2_B c i arg3 harg3 arg4 harg4 arg5 harg5 arg6 harg6 arg7 harg7 arg8 harg8 arg9 harg9 arg10 harg10 hc0 hc1 x0 x1 x2 xs0).1)
end

section
variable (hc0 : ¬cond_r2_0 i) (hc1 : cond_r2_1 i) (x0 x1 x2 : Vec F S512x1024 .f32) (x3 x4 : Vec F S1x512 .f32) (x5 xs0 : Vec F S512x512 .f32)

theorem cover_r2_C (y : S512x512.Idx) : ∃ pc ∈ (kernelRun_r2_C c i arg3 harg3 arg4 harg4 arg5 harg5 arg6 harg6 arg7 harg7 arg8 harg8 arg9 harg9 arg10 harg10 hc0 hc1 x0 x1 x2 x3 x4 x5 xs0).1, y ∈ pc.1.set :=
  View.cover_of_tiledL _ S512x512.size (by sl_kernel_rfl) y

def out_r2_C : Vec F S512x512 .f32 :=
  VO_r2.read (Elt F) (VO_r2.writes (Elt F) VO_r2.junk (kernelRun_r2_C c i arg3 harg3 arg4 harg4 arg5 harg5 arg6 harg6 arg7 harg7 arg8 harg8 arg9 harg9 arg10 harg10 hc0 hc1 x0 x1 x2 x3 x4 x5 xs0).1)

theorem scover_r2_C (y : S512x512.Idx) : ∃ pc ∈ (kernelRun_r2_C c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL _ S512x512.size (by sl_kernel_rfl) y

def sout_r2_C : Vec F S512x512 .f32 :=
  VS_r2.read (Elt F) (VS_r2.writes (Elt F) VS_r2.junk (kernelRun_r2_C c i arg3 harg3 arg4 harg4 arg5 harg5 arg6 harg6 arg7 harg7 arg8 harg8 arg9 harg9 arg10 harg10 hc0 hc1 x0 x1 x2 x3 x4 x5 xs0).2.1)
end
end

def idleOut_r2 : Vec F S512x512 .f32 := VO_r2.read (Elt F) VO_r2.junk

def soutA_at_r2 (c : Dev nD) (t : Fin cfg2.N) (h0 : t.val % 4 = 0) (h1 : ¬t.val % 4 = 3) : Vec F S512x512 .f32 :=
  sout_r2_A c (grid2.coords t) (ms_r2_0 t) (hs_r2_0 t) (ms_r2_1 t) (hs_r2_1 t) (ms_r2_2 t) (hs_r2_2 t) (ms_r2_3 t) (hs_r2_3 t) (ms_r2_4 t) (hs_r2_4 t) (ms_r2_5 t) (hs_r2_5 t) (ms_r2_6 t) (hs_r2_6 t) scM_r2 (Memref.isWhole_whole _) ((hcond_r2_0 t).mpr h0) (fun h => h1 ((hcond_r2_1 t).mp h))
    (iblk_r2 V c 0 t) (iblk_r2 V c 1 t) (iblk_r2 V c 2 t)

def soutB_at_r2 (c : Dev nD) (t : Fin cfg2.N) (h0 : ¬t.val % 4 = 0) (h1 : ¬t.val % 4 = 3) (xs0 : Vec F S512x512 .f32) : Vec F S512x512 .f32 :=
  sout_r2_B c (grid2.coords t) (ms_r2_0 t) (hs_r2_0 t) (ms_r2_1 t) (hs_r2_1 t) (ms_r2_2 t) (hs_r2_2 t) (ms_r2_3 t) (hs_r2_3 t) (ms_r2_4 t) (hs_r2_4 t) (ms_r2_5 t) (hs_r2_5 t) (ms_r2_6 t) (hs_r2_6 t) scM_r2 (Memref.isWhole_whole _) (fun h => h0 ((hcond_r2_0 t).mp h)) (fun h => h1 ((hcond_r2_1 t).mp h))
    (iblk_r2 V c 0 t) (iblk_r2 V c 1 t) (iblk_r2 V c 2 t) xs0

def outC_at_r2 (c : Dev nD) (t : Fin cfg2.N) (h0 : ¬t.val % 4 = 0) (h1 : t.val % 4 = 3) (xs0 : Vec F S512x512 .f32) : Vec F S512x512 .f32 :=
  out_r2_C c (grid2.coords t) (ms_r2_0 t) (hs_r2_0 t) (ms_r2_1 t) (hs_r2_1 t) (ms_r2_2 t) (hs_r2_2 t) (ms_r2_3 t) (hs_r2_3 t) (ms_r2_4 t) (hs_r2_4 t) (ms_r2_5 t) (hs_r2_5 t) (ms_r2_6 t) (hs_r2_6 t) scM_r2 (Memref.isWhole_whole _) (fun h => h0 ((hcond_r2_0 t).mp h)) ((hcond_r2_1 t).mpr h1)
    (iblk_r2 V c 0 t) (iblk_r2 V c 1 t) (iblk_r2 V c 2 t) (iblk_r2 V c 3 t) (iblk_r2 V c 4 t) (iblk_r2 V c 5 t) xs0

def soutC_at_r2 (c : Dev nD) (t : Fin cfg2.N) (h0 : ¬t.val % 4 = 0) (h1 : t.val % 4 = 3) (xs0 : Vec F S512x512 .f32) : Vec F S512x512 .f32 :=
  sout_r2_C c (grid2.coords t) (ms_r2_0 t) (hs_r2_0 t) (ms_r2_1 t) (hs_r2_1 t) (ms_r2_2 t) (hs_r2_2 t) (ms_r2_3 t) (hs_r2_3 t) (ms_r2_4 t) (hs_r2_4 t) (ms_r2_5 t) (hs_r2_5 t) (ms_r2_6 t) (hs_r2_6 t) scM_r2 (Memref.isWhole_whole _) (fun h => h0 ((hcond_r2_0 t).mp h)) ((hcond_r2_1 t).mpr h1)
    (iblk_r2 V c 0 t) (iblk_r2 V c 1 t) (iblk_r2 V c 2 t) (iblk_r2 V c 3 t) (iblk_r2 V c 4 t) (iblk_r2 V c 5 t) xs0

-- The output block and the accumulator after point n, by the residue of n modulo 4 (first, middle or last slab).
def outsAt_r2 (c : Dev nD) : (n : ℕ) → n < cfg2.N → Vec F S512x512 .f32 × Vec F S512x512 .f32
  | 0, hn => (idleOut_r2, soutA_at_r2 V c ⟨0, hn⟩ (Nat.zero_mod _) (by show ¬ 0 % 4 = 3; decide))
  | n + 1, hn =>
    if h0 : (n + 1) % 4 = 0 then
      (idleOut_r2, soutA_at_r2 V c ⟨n + 1, hn⟩ h0 (by show ¬ (n + 1) % 4 = 3; omega))
    else
      if h1 : (n + 1) % 4 = 3 then
        (outC_at_r2 V c ⟨n + 1, hn⟩ h0 h1 (outsAt_r2 c n (Nat.lt_of_succ_lt hn)).2, soutC_at_r2 V c ⟨n + 1, hn⟩ h0 h1 (outsAt_r2 c n (Nat.lt_of_succ_lt hn)).2)
      else
        (idleOut_r2, soutB_at_r2 V c ⟨n + 1, hn⟩ h0 h1 (outsAt_r2 c n (Nat.lt_of_succ_lt hn)).2)

theorem outsAt_r2_A (c : Dev nD) (t : Fin cfg2.N) (h0 : t.val % 4 = 0) (h1 : ¬t.val % 4 = 3) :
    outsAt_r2 V c t.val t.isLt = (idleOut_r2, soutA_at_r2 V c t h0 h1) := by
  obtain ⟨n, hn⟩ := t
  cases n with
  | zero => exact rfl
  | succ n => exact (dif_pos h0).trans rfl

theorem outsAt_r2_B (c : Dev nD) (t : Fin cfg2.N) (h0 : ¬t.val % 4 = 0) (h1 : ¬t.val % 4 = 3) :
    outsAt_r2 V c t.val t.isLt = (idleOut_r2, soutB_at_r2 V c t h0 h1 (outsAt_r2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_r2_C (c : Dev nD) (t : Fin cfg2.N) (h0 : ¬t.val % 4 = 0) (h1 : t.val % 4 = 3) :
    outsAt_r2 V c t.val t.isLt = (outC_at_r2 V c t h0 h1 (outsAt_r2 V c (t.val - 1) (Nat.lt_of_le_of_lt (Nat.sub_le _ _) t.isLt)).2, soutC_at_r2 V c t h0 h1 (outsAt_r2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS_r2 (c : Dev nD) : (n : ℕ) → n ≤ cfg2.N → sProp 𝕄
  | 0, _ => Pipeline.ΦA spec2 c
  | n + 1, hn => iprop(iprop(owns (c : Thread nD τ) scM_r2 fullShare ((outsAt_r2 V c n hn).2) ∗ restBut_r2 c) ∗ (∃ r, prngReg c r))

theorem PhiS_r2_zero (c : Dev nD) (n : ℕ) (h : n ≤ cfg2.N) (hz : n = 0) : PhiS_r2 V c n h = Pipeline.ΦA spec2 c := by
  subst hz; rfl

theorem PhiS_r2_succ (c : Dev nD) (n : ℕ) (hn : n < cfg2.N) :
    PhiS_r2 V c (n + 1) hn = iprop(iprop(owns (c : Thread nD τ) scM_r2 fullShare ((outsAt_r2 V c n hn).2) ∗ restBut_r2 c) ∗ (∃ r, prngReg c r)) := rfl

theorem PhiS_r2_pos (c : Dev nD) (n : ℕ) (h : n ≤ cfg2.N) (hz : n ≠ 0) :
    PhiS_r2 V c n h = iprop(iprop(owns (c : Thread nD τ) scM_r2 fullShare ((outsAt_r2 V c (n - 1) (by omega)).2) ∗ restBut_r2 c) ∗ (∃ r, prngReg c r)) := by
  cases n with
  | zero => exact absurd rfl hz
  | succ n => rfl

theorem PhiS_r2_any (c : Dev nD) (n : ℕ) (h : n ≤ cfg2.N) :
    PhiS_r2 V c n h ⊢ iprop(iprop((∃ d, owns (c : Thread nD τ) scM_r2 fullShare d) ∗ restBut_r2 c) ∗ (∃ r, prngReg c r)) := by
  cases n with
  | zero => rw [PhiS_r2_zero V c 0 h rfl, PhiA_r2_eq]
  | succ n =>
    rw [PhiS_r2_succ]
    iintro ⟨⟨HS0, HR⟩, Hg⟩
    isplitl [HS0 HR]
    · isplitl [HS0]; · iexists _; iexact HS0
      iexact HR
    iexact Hg

def dat_r2 (c : Dev nD) : Dat τ (Elt F) Unit ℕ (UR sig nD τ) ℕ cfg2 c where
  A w := V c (Pipeline.arrRef spec2 w)
  after w t := match w with
    | ⟨0, _⟩ => iblk_r2 V c 0 t
    | ⟨1, _⟩ => iblk_r2 V c 1 t
    | ⟨2, _⟩ => iblk_r2 V c 2 t
    | ⟨3, _⟩ => iblk_r2 V c 3 t
    | ⟨4, _⟩ => iblk_r2 V c 4 t
    | ⟨5, _⟩ => iblk_r2 V c 5 t
    | ⟨6, _⟩ => (outsAt_r2 V c t.val t.isLt).1
  Φ t := PhiS_r2 V c t.val (Nat.le_of_lt_succ t.isLt)
  q _ := fullShare
  owed _ := 0

theorem A_eq_r2 (c : Dev nD) (w : Fin cfg2.W) : (dat_r2 V c).A w = V c (Pipeline.arrRef spec2 w) := by
  dsimp only [dat_r2]

theorem PhiS_r2_castSucc (c : Dev nD) (t : Fin cfg2.N) :
    (dat_r2 V c).Φ t.castSucc = PhiS_r2 V c t.val (Nat.le_of_lt t.isLt) := by
  dsimp only [dat_r2]; simp only [Fin.coe_castSucc]

section
variable (c : Dev nD) (t : Fin cfg2.N)

theorem after_r2_0 : (dat_r2 V c).after 0 t = iblk_r2 V c 0 t := rfl
theorem after_r2_1 : (dat_r2 V c).after 1 t = iblk_r2 V c 1 t := rfl
theorem after_r2_2 : (dat_r2 V c).after 2 t = iblk_r2 V c 2 t := rfl
theorem after_r2_3 : (dat_r2 V c).after 3 t = iblk_r2 V c 3 t := rfl
theorem after_r2_4 : (dat_r2 V c).after 4 t = iblk_r2 V c 4 t := rfl
theorem after_r2_5 : (dat_r2 V c).after 5 t = iblk_r2 V c 5 t := rfl
theorem after_r2_6 : (dat_r2 V c).after 6 t = (outsAt_r2 V c t.val t.isLt).1 := rfl

theorem before_r2_0 (d) : (dat_r2 V c).before 0 t d = iblk_r2 V c 0 t :=
  ((dat_r2 V c).before_in_eq_fetched 0 rfl (fun _ => rfl) (fun _ _ _ => rfl) (fun _ => rfl) t d).trans rfl
theorem before_r2_1 (d) : (dat_r2 V c).before 1 t d = iblk_r2 V c 1 t :=
  ((dat_r2 V c).before_in_eq_fetched 1 rfl (fun _ => rfl) (fun _ _ _ => rfl) (fun _ => rfl) t d).trans rfl
theorem before_r2_2 (d) : (dat_r2 V c).before 2 t d = iblk_r2 V c 2 t :=
  ((dat_r2 V c).before_in_eq_fetched 2 rfl (fun _ => rfl) (fun _ _ _ => rfl) (fun _ => rfl) t d).trans rfl
theorem before_r2_3 (d) : (dat_r2 V c).before 3 t d = iblk_r2 V c 3 t :=
  ((dat_r2 V c).before_in_eq_fetched 3 rfl (fun _ => rfl) (fun _ _ _ => rfl) (fun _ => rfl) t d).trans rfl
theorem before_r2_4 (d) : (dat_r2 V c).before 4 t d = iblk_r2 V c 4 t :=
  ((dat_r2 V c).before_in_eq_fetched 4 rfl (fun _ => rfl) (fun _ _ _ => rfl) (fun _ => rfl) t d).trans rfl
theorem before_r2_5 (d) : (dat_r2 V c).before 5 t d = iblk_r2 V c 5 t :=
  ((dat_r2 V c).before_in_eq_fetched 5 rfl (fun _ => rfl) (fun _ _ _ => rfl) (fun _ => rfl) t d).trans rfl
end

end Cert.KernelIdeal.Hand

end
-- ==== Proof.KernelIdeal.R2.Body.lean ====
import proofs.«128115_j49460843381367_1_alg».proof.Proof.KernelIdeal.R2.Frame
import proofs.«128115_j49460843381367_1_alg».proof.Proof.LibDat

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre_r2 (c : Dev nD) (t : Fin cfg2.N) : sProp 𝕄 :=
  iprop((dat_r2 V c).Φ t.castSucc ∗ (dat_r2 V c).owesAt () t.castSucc
    ∗ (∃ d, owns (c : Thread nD τ) (ms_r2_0 t) fullShare ((dat_r2 V c).before 0 t d))
    ∗ (∃ d, owns (c : Thread nD τ) (ms_r2_1 t) fullShare ((dat_r2 V c).before 1 t d))
    ∗ (∃ d, owns (c : Thread nD τ) (ms_r2_2 t) fullShare ((dat_r2 V c).before 2 t d))
    ∗ (∃ d, owns (c : Thread nD τ) (ms_r2_3 t) fullShare ((dat_r2 V c).before 3 t d))
    ∗ (∃ d, owns (c : Thread nD τ) (ms_r2_4 t) fullShare ((dat_r2 V c).before 4 t d))
    ∗ (∃ d, owns (c : Thread nD τ) (ms_r2_5 t) fullShare ((dat_r2 V c).before 5 t d))
    ∗ (∃ d, owns (c : Thread nD τ) (ms_r2_6 t) fullShare ((dat_r2 V c).before 6 t d)))

def bodyPost_r2 (c : Dev nD) (t : Fin cfg2.N) : sProp 𝕄 :=
  iprop((dat_r2 V c).Φ t.succ ∗ (dat_r2 V c).owesAt () t.succ
    ∗ (dat_r2 V c).leavesExact 0 t
    ∗ (dat_r2 V c).leavesExact 1 t
    ∗ (dat_r2 V c).leavesExact 2 t
    ∗ (dat_r2 V c).leavesExact 3 t
    ∗ (dat_r2 V c).leavesExact 4 t
    ∗ (dat_r2 V c).leavesExact 5 t
    ∗ (dat_r2 V c).leavesExact 6 t)

set_option maxHeartbeats 8000000 in
theorem sound_body_r2 (c : Dev nD) (t : Fin cfg2.N) :
    bodyPre_r2 V c t ⊢ wp frame (wpE (defs₀ (F := F)) Variants.none c none) Set.univ (bodyAt2 t) (fun _ => bodyPost_r2 V c t) := by
  unfold bodyPre_r2 bodyPost_r2 bodyAt2
  simp only [before_r2_0, before_r2_1, before_r2_2, before_r2_3, before_r2_4, before_r2_5]
  rw [show (dat_r2 V c).owesAt () t.succ = (dat_r2 V c).owesAt () t.castSucc from rfl]
  rw [show (dat_r2 V c).Φ t.succ = PhiS_r2 V c (t.val + 1) t.isLt from rfl, PhiS_r2_succ]
  have hN : t.val < 256 := lt_of_lt_of_eq t.isLt (show cfg2.N = 256 from N_2)
  rw [Dat.leavesExact_live _ 0 t (live_r2 0 t (by decide)), after_r2_0,
    Dat.leavesExact_live _ 1 t (live_r2 1 t (by decide)), after_r2_1,
    Dat.leavesExact_live _ 2 t (live_r2 2 t (by decide)), after_r2_2,
    Dat.leavesExact_live _ 3 t (live_r2 3 t (by decide)), after_r2_3,
    Dat.leavesExact_live _ 4 t (live_r2 4 t (by decide)), after_r2_4,
    Dat.leavesExact_live _ 5 t (live_r2 5 t (by decide)), after_r2_5]
  by_cases h0 : t.val % 4 = 0
  · by_cases h1 : t.val % 4 = 3
    · exfalso; omega
    ·
      rw [Dat.leavesExact_idle (dat_r2 V c) 6 t (idleAt_r2_6 t (fun h => h1 ((hcond_r2_1 t).mp h))) (noFlush_r2_6 t (fun h => h1 ((hcond_r2_1 t).mp h)))]
      rw [outsAt_r2_A V c t h0 h1]
      unfold soutA_at_r2 sout_r2_A; (try dsimp only)
      rw [PhiS_r2_castSucc V c t]
      iintro ⟨HP, Ho, ⟨%d0, H0⟩, ⟨%d1, H1⟩, ⟨%d2, H2⟩, ⟨%d3, H3⟩, ⟨%d4, H4⟩, ⟨%d5, H5⟩, ⟨%d6, H6⟩⟩
      ihave HP := (PhiS_r2_any V c _ _) $$ HP
      icases HP with ⟨⟨HS0, HR⟩, Hg⟩
      iapply ((kernelRun_r2_A c (grid2.coords t) _ _ _ _ _ _ _ _ _ _ _ _ _ _ _ _ ((hcond_r2_0 t).mpr h0) (fun h => h1 ((hcond_r2_1 t).mp h)) (iblk_r2 V c 0 t) (iblk_r2 V c 1 t) (iblk_r2 V c 2 t)).2 Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_r2_A c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · by_cases h1 : t.val % 4 = 3
    ·
      rw [show (dat_r2 V c).leavesExact 6 t = owns (c : Thread nD τ) (ms_r2_6 t) fullShare ((dat_r2 V c).after 6 t) from by
        unfold Dat.leavesExact; rw [liveAt_r2_6 t ((hcond_r2_1 t).mpr h1)], after_r2_6]
      rw [outsAt_r2_C V c t h0 h1]
      unfold outC_at_r2 soutC_at_r2 out_r2_C sout_r2_C; (try dsimp only)
      have hz : t.val ≠ 0 := by omega
      rw [PhiS_r2_castSucc V c t, PhiS_r2_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun_r2_C c (grid2.coords t) _ _ _ _ _ _ _ _ _ _ _ _ _ _ _ _ (fun h => h0 ((hcond_r2_0 t).mp h)) ((hcond_r2_1 t).mpr h1) (iblk_r2 V c 0 t) (iblk_r2 V c 1 t) (iblk_r2 V c 2 t) (iblk_r2 V c 3 t) (iblk_r2 V c 4 t) (iblk_r2 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_r2_C c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover_r2_C c _ _ _ _ _ _ _ _ _ _ _ _ _ _ _ _ _ _ _ _ _ _ _ _ _ _)
    ·
      rw [Dat.leavesExact_idle (dat_r2 V c) 6 t (idleAt_r2_6 t (fun h => h1 ((hcond_r2_1 t).mp h))) (noFlush_r2_6 t (fun h => h1 ((hcond_r2_1 t).mp h)))]
      rw [outsAt_r2_B V c t h0 h1]
      unfold soutB_at_r2 sout_r2_B; (try dsimp only)
      have hz : t.val ≠ 0 := by omega
      rw [PhiS_r2_castSucc V c t, PhiS_r2_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun_r2_B c (grid2.coords t) _ _ _ _ _ _ _ _ _ _ _ _ _ _ _ _ (fun h => h0 ((hcond_r2_0 t).mp h)) (fun h => h1 ((hcond_r2_1 t).mp h)) (iblk_r2 V c 0 t) (iblk_r2 V c 1 t) (iblk_r2 V c 2 t) _).2 Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_r2_B c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation_r2 (c : Dev nD) : BodyObligation (dat_r2 (F := F) V c) (defs₀ (F := F)) Variants.none () Set.univ := fun t => by
  rw [bigSep_W2, bigSep_W2]
  exact sound_body_r2 V c t

theorem hin_r2 (c : Dev nD) : Pipeline.ΦA spec2 c ⊢ (dat_r2 V c).Φ 0 := by
  rw [show (dat_r2 V c).Φ 0 = PhiS_r2 V c 0 (Nat.zero_le _) from rfl, PhiS_r2_zero V c 0 _ rfl]
  try exact Idealize.SL.BI.Entails.refl _

theorem hout_r2 (c : Dev nD) : (dat_r2 V c).Φ (Fin.last cfg2.N) ⊢ Pipeline.ΦA spec2 c := by
  rw [PhiA_r2_eq]; exact PhiS_r2_any V c (Fin.last cfg2.N).val (Nat.le_of_lt_succ (Fin.last cfg2.N).isLt)

end Cert.KernelIdeal.Hand

end
-- ==== Proof.KernelIdeal.R3.Runs.lean ====
import proofs.«128115_j49460843381367_1_alg».proof.Proof.Gen.KernelIdeal.Launch
import proofs.«128115_j49460843381367_1_alg».proof.Proof.Gen.KernelIdeal.Skeleton
import proofs.«128115_j49460843381367_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk_r3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- The grid's last coordinate k walks the contraction in four slabs: k = 0 is the first slab, k = 3 the last.
abbrev cond_r3_0 (i : grid3.Coords) : Prop := (Scalar.cmpi .ne (Scalar.extui (Scalar.cmpi .eq (BitVec.ofNat 32 (i 2).val) 0#32)) 0#32) = 1#1
theorem hcond_r3_0 : ∀ t : Fin cfg3.N, cond_r3_0 (grid3.coords t) ↔ t.val % 4 = 0 :=
  (by decide +kernel : ∀ t : Fin grid3.N, cond_r3_0 (grid3.coords t) ↔ t.val % 4 = 0)

abbrev cond_r3_1 (i : grid3.Coords) : Prop := k3_cond2 i = 1#1
theorem hcond_r3_1 : ∀ t : Fin cfg3.N, cond_r3_1 (grid3.coords t) ↔ t.val % 4 = 3 :=
  (by decide +kernel : ∀ t : Fin grid3.N, cond_r3_1 (grid3.coords t) ↔ t.val % 4 = 3)

theorem live_r3 : ∀ (w : Fin cfg3.W) (t : Fin cfg3.N), w ≠ 6 → cfg3.idle w (grid3.coords t) = false := by decide +kernel

theorem idleAt_r3_6 : ∀ t : Fin cfg3.N, ¬cond_r3_1 (grid3.coords t) → cfg3.idle 6 (grid3.coords t) = true := by decide +kernel
theorem noFlush_r3_6 : ∀ t : Fin cfg3.N, ¬cond_r3_1 (grid3.coords t) → (cfg3.win 6).flush t = false := by decide +kernel

theorem liveAt_r3_6 : ∀ t : Fin cfg3.N, cond_r3_1 (grid3.coords t) → cfg3.idle 6 (grid3.coords t) = false := by decide +kernel

abbrev ms_r3_0 (t : Fin cfg3.N) : Memref sig .tc .vmem S512x1024 .f32 := win3_0.stage (cfg3.slots t 0)
abbrev hs_r3_0 (t : Fin cfg3.N) : (ms_r3_0 t).IsWhole := hstage3_0 ((cfg3.slots t 0).cast nbuf3_0)
abbrev ms_r3_1 (t : Fin cfg3.N) : Memref sig .tc .vmem S512x1024 .f32 := win3_1.stage (cfg3.slots t 1)
abbrev hs_r3_1 (t : Fin cfg3.N) : (ms_r3_1 t).IsWhole := hstage3_1 ((cfg3.slots t 1).cast nbuf3_1)
abbrev ms_r3_2 (t : Fin cfg3.N) : Memref sig .tc .vmem S512x1024 .f32 := win3_2.stage (cfg3.slots t 2)
abbrev hs_r3_2 (t : Fin cfg3.N) : (ms_r3_2 t).IsWhole := hstage3_2 ((cfg3.slots t 2).cast nbuf3_2)
abbrev ms_r3_3 (t : Fin cfg3.N) : Memref sig .tc .vmem S1x512 .f32 := win3_3.stage (cfg3.slots t 3)
abbrev hs_r3_3 (t : Fin cfg3.N) : (ms_r3_3 t).IsWhole := hstage3_3 ((cfg3.slots t 3).cast nbuf3_3)
abbrev ms_r3_4 (t : Fin cfg3.N) : Memref sig .tc .vmem S1x512 .f32 := win3_4.stage (cfg3.slots t 4)
abbrev hs_r3_4 (t : Fin cfg3.N) : (ms_r3_4 t).IsWhole := hstage3_4 ((cfg3.slots t 4).cast nbuf3_4)
abbrev ms_r3_5 (t : Fin cfg3.N) : Memref sig .tc .vmem S512x512 .f32 := win3_5.stage (cfg3.slots t 5)
abbrev hs_r3_5 (t : Fin cfg3.N) : (ms_r3_5 t).IsWhole := hstage3_5 ((cfg3.slots t 5).cast nbuf3_5)
abbrev ms_r3_6 (t : Fin cfg3.N) : Memref sig .tc .vmem S512x512 .f32 := win3_6.stage (cfg3.slots t 6)
abbrev hs_r3_6 (t : Fin cfg3.N) : (ms_r3_6 t).IsWhole := hstage3_6 ((cfg3.slots t 6).cast nbuf3_6)

abbrev scM_r3 : Memref sig .tc .vmem S512x512 .f32 := Memref.whole cc3_scratch0
abbrev VS_r3 : View sig .tc .vmem S512x512 .f32 := scM_r3.view

abbrev VO_r3 : View sig .tc .vmem S512x512 .f32 := (Memref.whole cc3_stg6_0 : Memref sig .tc .vmem S512x512 .f32).view

abbrev restBut_r3 (c : Dev nD) : sProp 𝕄 :=
  Pipeline.scopedRestBut (Ix := Unit) (Name := ℕ) (U := UR sig nD τ) (Lvl := ℕ) (Val := Elt F) spec3 c [cc3_scratch0]

theorem PhiA_r3_eq (c : Dev nD) :
    (Pipeline.ΦA spec3 c : sProp 𝕄)
      = iprop(iprop((∃ d, owns (c : Thread nD τ) scM_r3 fullShare d) ∗ restBut_r3 c) ∗ (∃ r, prngReg c r)) := by
  unfold Pipeline.ΦA; rw [scopedRest3_split]; simp only [scM_r3, owns_whole]; try rfl

end Cert.KernelIdeal.Hand

end
-- ==== Proof.KernelIdeal.R3.Run.lean ====
import proofs.«128115_j49460843381367_1_alg».proof.Proof.KernelIdeal.R3.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (c : Dev nD) (i : grid3.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole)
  (arg6 : Memref sig .tc .vmem S1x512 .f32) (harg6 : arg6.IsWhole) (arg7 : Memref sig .tc .vmem S1x512 .f32) (harg7 : arg7.IsWhole) (arg8 : Memref sig .tc .vmem S512x512 .f32) (harg8 : arg8.IsWhole)
  (arg9 : Memref sig .tc .vmem S512x512 .f32) (harg9 : arg9.IsWhole) (arg10 : Memref sig .tc .vmem S512x512 .f32) (harg10 : arg10.IsWhole)

set_option maxHeartbeats 4000000 in
noncomputable def kernelRun_r3_A (hc0 : cond_r3_0 i) (hc1 : ¬cond_r3_1 i)
    (x0 x1 x2 : Vec F S512x1024 .f32) :
    { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ (∃ f, arg10.view.loc (c : Thread nD τ) ↦[arg10.view.set]{fullShare} arg10.view.writes (Elt F) f LS0)) -∗ K ⟨⟩))
          ⊢ wp frame (wpE (defs₀ (F := F)) Variants.none c none) E (cc3__scm_mlp_layer_kernel i arg3 harg3 arg4 harg4 arg5 harg5 arg6 harg6 arg7 harg7 arg8 harg8 arg9 harg9 arg10 harg10) K } := by
  refine ⟨?_, fun E K => ?run⟩
  case run =>
    simp only [cc3__scm_mlp_layer_kernel_eq_skeleton]; unfold cc3__scm_mlp_layer_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 4000000 in
noncomputable def kernelRun_r3_B (hc0 : ¬cond_r3_0 i) (hc1 : ¬cond_r3_1 i)
    (x0 x1 x2 : Vec F S512x1024 .f32) (xs0 : Vec F S512x512 .f32) :
    { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg10 fullShare xs0
            ∗ (iprop(owns (c : Thread nD τ) arg3 fullShare x0 ∗ owns (c : Thread nD τ) arg4 fullShare x1 ∗ owns (c : Thread nD τ) arg5 fullShare x2 ∗ (∃ f, arg10.view.loc (c : Thread nD τ) ↦[arg10.view.set]{fullShare} arg10.view.writes (Elt F) f LS0)) -∗ K ⟨⟩))
          ⊢ wp frame (wpE (defs₀ (F := F)) Variants.none c none) E (cc3__scm_mlp_layer_kernel i arg3 harg3 arg4 harg4 arg5 harg5 arg6 harg6 arg7 harg7 arg8 harg8 arg9 harg9 arg10 harg10) K } := by
  refine ⟨?_, fun E K => ?run⟩
  case run =>
    simp only [cc3__scm_mlp_layer_kernel_eq_skeleton]; unfold cc3__scm_mlp_layer_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 4000000 in
noncomputable def kernelRun_r3_C (hc0 : ¬cond_r3_0 i) (hc1 : cond_r3_1 i)
    (x0 x1 x2 : Vec F S512x1024 .f32) (x3 x4 : Vec F S1x512 .f32) (x5 : Vec F S512x512 .f32) (xs0 : Vec F S512x512 .f32) :
    Σ' (L6 : List (View.Piece (Elt F) S512x512 .f32)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc3__scm_mlp_layer_kernel i arg3 harg3 arg4 harg4 arg5 harg5 arg6 harg6 arg7 harg7 arg8 harg8 arg9 harg9 arg10 harg10) K } := by
  refine ⟨?_, ?_, fun E K => ?run⟩
  case run =>
    simp only [cc3__scm_mlp_layer_kernel_eq_skeleton]; unfold cc3__scm_mlp_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0
end

end Cert.KernelIdeal.Hand

end
-- ==== Proof.KernelIdeal.R3.Frame.lean ====
import proofs.«128115_j49460843381367_1_alg».proof.Proof.KernelIdeal.R3.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid3.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole)
  (arg6 : Memref sig .tc .vmem S1x512 .f32) (harg6 : arg6.IsWhole) (arg7 : Memref sig .tc .vmem S1x512 .f32) (harg7 : arg7.IsWhole) (arg8 : Memref sig .tc .vmem S512x512 .f32) (harg8 : arg8.IsWhole)
  (arg9 : Memref sig .tc .vmem S512x512 .f32) (harg9 : arg9.IsWhole) (arg10 : Memref sig .tc .vmem S512x512 .f32) (harg10 : arg10.IsWhole)

section
variable (hc0 : cond_r3_0 i) (hc1 : ¬cond_r3_1 i) (x0 x1 x2 : Vec F S512x1024 .f32)

theorem scover_r3_A (y : S512x512.Idx) : ∃ pc ∈ (kernelRun_r3_A c i arg3 harg3 arg4 harg4 arg5 harg5 arg6 harg6 arg7 harg7 arg8 harg8 arg9 harg9 arg10 harg10 hc0 hc1 x0 x1 x2).1, y ∈ pc.1.set :=
  View.cover_of_tiledL _ S512x512.size (by sl_kernel_rfl) y

def sout_r3_A : Vec F S512x512 .f32 :=
  VS_r3.read (Elt F) (VS_r3.writes (Elt F) VS_r3.junk (kernelRun_r3_A c i arg3 harg3 arg4 harg4 arg5 harg5 arg6 harg6 arg7 harg7 arg8 harg8 arg9 harg9 arg10 harg10 hc0 hc1 x0 x1 x2).1)
end

section
variable (hc0 : ¬cond_r3_0 i) (hc1 : ¬cond_r3_1 i) (x0 x1 x2 : Vec F S512x1024 .f32) (xs0 : Vec F S512x512 .f32)

theorem scover_r3_B (y : S512x512.Idx) : ∃ pc ∈ (kernelRun_r3_B c i arg3 harg3 arg4 harg4 arg5 harg5 arg6 harg6 arg7 harg7 arg8 harg8 arg9 harg9 arg10 harg10 hc0 hc1 x0 x1 x2 xs0).1, y ∈ pc.1.set :=
  View.cover_of_tiledL _ S512x512.size (by sl_kernel_rfl) y

def sout_r3_B : Vec F S512x512 .f32 :=
  VS_r3.read (Elt F) (VS_r3.writes (Elt F) VS_r3.junk (kernelRun_r3_B c i arg3 harg3 arg4 harg4 arg5 harg5 arg6 harg6 arg7 harg7 arg8 harg8 arg9 harg9 arg10 harg10 hc0 hc1 x0 x1 x2 xs0).1)
end

section
variable (hc0 : ¬cond_r3_0 i) (hc1 : cond_r3_1 i) (x0 x1 x2 : Vec F S512x1024 .f32) (x3 x4 : Vec F S1x512 .f32) (x5 xs0 : Vec F S512x512 .f32)

theorem cover_r3_C (y : S512x512.Idx) : ∃ pc ∈ (kernelRun_r3_C c i arg3 harg3 arg4 harg4 arg5 harg5 arg6 harg6 arg7 harg7 arg8 harg8 arg9 harg9 arg10 harg10 hc0 hc1 x0 x1 x2 x3 x4 x5 xs0).1, y ∈ pc.1.set :=
  View.cover_of_tiledL _ S512x512.size (by sl_kernel_rfl) y

def out_r3_C : Vec F S512x512 .f32 :=
  VO_r3.read (Elt F) (VO_r3.writes (Elt F) VO_r3.junk (kernelRun_r3_C c i arg3 harg3 arg4 harg4 arg5 harg5 arg6 harg6 arg7 harg7 arg8 harg8 arg9 harg9 arg10 harg10 hc0 hc1 x0 x1 x2 x3 x4 x5 xs0).1)

theorem scover_r3_C (y : S512x512.Idx) : ∃ pc ∈ (kernelRun_r3_C c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL _ S512x512.size (by sl_kernel_rfl) y

def sout_r3_C : Vec F S512x512 .f32 :=
  VS_r3.read (Elt F) (VS_r3.writes (Elt F) VS_r3.junk (kernelRun_r3_C c i arg3 harg3 arg4 harg4 arg5 harg5 arg6 harg6 arg7 harg7 arg8 harg8 arg9 harg9 arg10 harg10 hc0 hc1 x0 x1 x2 x3 x4 x5 xs0).2.1)
end
end

def idleOut_r3 : Vec F S512x512 .f32 := VO_r3.read (Elt F) VO_r3.junk

def soutA_at_r3 (c : Dev nD) (t : Fin cfg3.N) (h0 : t.val % 4 = 0) (h1 : ¬t.val % 4 = 3) : Vec F S512x512 .f32 :=
  sout_r3_A c (grid3.coords t) (ms_r3_0 t) (hs_r3_0 t) (ms_r3_1 t) (hs_r3_1 t) (ms_r3_2 t) (hs_r3_2 t) (ms_r3_3 t) (hs_r3_3 t) (ms_r3_4 t) (hs_r3_4 t) (ms_r3_5 t) (hs_r3_5 t) (ms_r3_6 t) (hs_r3_6 t) scM_r3 (Memref.isWhole_whole _) ((hcond_r3_0 t).mpr h0) (fun h => h1 ((hcond_r3_1 t).mp h))
    (iblk_r3 V c 0 t) (iblk_r3 V c 1 t) (iblk_r3 V c 2 t)

def soutB_at_r3 (c : Dev nD) (t : Fin cfg3.N) (h0 : ¬t.val % 4 = 0) (h1 : ¬t.val % 4 = 3) (xs0 : Vec F S512x512 .f32) : Vec F S512x512 .f32 :=
  sout_r3_B c (grid3.coords t) (ms_r3_0 t) (hs_r3_0 t) (ms_r3_1 t) (hs_r3_1 t) (ms_r3_2 t) (hs_r3_2 t) (ms_r3_3 t) (hs_r3_3 t) (ms_r3_4 t) (hs_r3_4 t) (ms_r3_5 t) (hs_r3_5 t) (ms_r3_6 t) (hs_r3_6 t) scM_r3 (Memref.isWhole_whole _) (fun h => h0 ((hcond_r3_0 t).mp h)) (fun h => h1 ((hcond_r3_1 t).mp h))
    (iblk_r3 V c 0 t) (iblk_r3 V c 1 t) (iblk_r3 V c 2 t) xs0

def outC_at_r3 (c : Dev nD) (t : Fin cfg3.N) (h0 : ¬t.val % 4 = 0) (h1 : t.val % 4 = 3) (xs0 : Vec F S512x512 .f32) : Vec F S512x512 .f32 :=
  out_r3_C c (grid3.coords t) (ms_r3_0 t) (hs_r3_0 t) (ms_r3_1 t) (hs_r3_1 t) (ms_r3_2 t) (hs_r3_2 t) (ms_r3_3 t) (hs_r3_3 t) (ms_r3_4 t) (hs_r3_4 t) (ms_r3_5 t) (hs_r3_5 t) (ms_r3_6 t) (hs_r3_6 t) scM_r3 (Memref.isWhole_whole _) (fun h => h0 ((hcond_r3_0 t).mp h)) ((hcond_r3_1 t).mpr h1)
    (iblk_r3 V c 0 t) (iblk_r3 V c 1 t) (iblk_r3 V c 2 t) (iblk_r3 V c 3 t) (iblk_r3 V c 4 t) (iblk_r3 V c 5 t) xs0

def soutC_at_r3 (c : Dev nD) (t : Fin cfg3.N) (h0 : ¬t.val % 4 = 0) (h1 : t.val % 4 = 3) (xs0 : Vec F S512x512 .f32) : Vec F S512x512 .f32 :=
  sout_r3_C c (grid3.coords t) (ms_r3_0 t) (hs_r3_0 t) (ms_r3_1 t) (hs_r3_1 t) (ms_r3_2 t) (hs_r3_2 t) (ms_r3_3 t) (hs_r3_3 t) (ms_r3_4 t) (hs_r3_4 t) (ms_r3_5 t) (hs_r3_5 t) (ms_r3_6 t) (hs_r3_6 t) scM_r3 (Memref.isWhole_whole _) (fun h => h0 ((hcond_r3_0 t).mp h)) ((hcond_r3_1 t).mpr h1)
    (iblk_r3 V c 0 t) (iblk_r3 V c 1 t) (iblk_r3 V c 2 t) (iblk_r3 V c 3 t) (iblk_r3 V c 4 t) (iblk_r3 V c 5 t) xs0

-- The output block and the accumulator after point n, by the residue of n modulo 4 (first, middle or last slab).
def outsAt_r3 (c : Dev nD) : (n : ℕ) → n < cfg3.N → Vec F S512x512 .f32 × Vec F S512x512 .f32
  | 0, hn => (idleOut_r3, soutA_at_r3 V c ⟨0, hn⟩ (Nat.zero_mod _) (by show ¬ 0 % 4 = 3; decide))
  | n + 1, hn =>
    if h0 : (n + 1) % 4 = 0 then
      (idleOut_r3, soutA_at_r3 V c ⟨n + 1, hn⟩ h0 (by show ¬ (n + 1) % 4 = 3; omega))
    else
      if h1 : (n + 1) % 4 = 3 then
        (outC_at_r3 V c ⟨n + 1, hn⟩ h0 h1 (outsAt_r3 c n (Nat.lt_of_succ_lt hn)).2, soutC_at_r3 V c ⟨n + 1, hn⟩ h0 h1 (outsAt_r3 c n (Nat.lt_of_succ_lt hn)).2)
      else
        (idleOut_r3, soutB_at_r3 V c ⟨n + 1, hn⟩ h0 h1 (outsAt_r3 c n (Nat.lt_of_succ_lt hn)).2)

theorem outsAt_r3_A (c : Dev nD) (t : Fin cfg3.N) (h0 : t.val % 4 = 0) (h1 : ¬t.val % 4 = 3) :
    outsAt_r3 V c t.val t.isLt = (idleOut_r3, soutA_at_r3 V c t h0 h1) := by
  obtain ⟨n, hn⟩ := t
  cases n with
  | zero => exact rfl
  | succ n => exact (dif_pos h0).trans rfl

theorem outsAt_r3_B (c : Dev nD) (t : Fin cfg3.N) (h0 : ¬t.val % 4 = 0) (h1 : ¬t.val % 4 = 3) :
    outsAt_r3 V c t.val t.isLt = (idleOut_r3, soutB_at_r3 V c t h0 h1 (outsAt_r3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_r3_C (c : Dev nD) (t : Fin cfg3.N) (h0 : ¬t.val % 4 = 0) (h1 : t.val % 4 = 3) :
    outsAt_r3 V c t.val t.isLt = (outC_at_r3 V c t h0 h1 (outsAt_r3 V c (t.val - 1) (Nat.lt_of_le_of_lt (Nat.sub_le _ _) t.isLt)).2, soutC_at_r3 V c t h0 h1 (outsAt_r3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS_r3 (c : Dev nD) : (n : ℕ) → n ≤ cfg3.N → sProp 𝕄
  | 0, _ => Pipeline.ΦA spec3 c
  | n + 1, hn => iprop(iprop(owns (c : Thread nD τ) scM_r3 fullShare ((outsAt_r3 V c n hn).2) ∗ restBut_r3 c) ∗ (∃ r, prngReg c r))

theorem PhiS_r3_zero (c : Dev nD) (n : ℕ) (h : n ≤ cfg3.N) (hz : n = 0) : PhiS_r3 V c n h = Pipeline.ΦA spec3 c := by
  subst hz; rfl

theorem PhiS_r3_succ (c : Dev nD) (n : ℕ) (hn : n < cfg3.N) :
    PhiS_r3 V c (n + 1) hn = iprop(iprop(owns (c : Thread nD τ) scM_r3 fullShare ((outsAt_r3 V c n hn).2) ∗ restBut_r3 c) ∗ (∃ r, prngReg c r)) := rfl

theorem PhiS_r3_pos (c : Dev nD) (n : ℕ) (h : n ≤ cfg3.N) (hz : n ≠ 0) :
    PhiS_r3 V c n h = iprop(iprop(owns (c : Thread nD τ) scM_r3 fullShare ((outsAt_r3 V c (n - 1) (by omega)).2) ∗ restBut_r3 c) ∗ (∃ r, prngReg c r)) := by
  cases n with
  | zero => exact absurd rfl hz
  | succ n => rfl

theorem PhiS_r3_any (c : Dev nD) (n : ℕ) (h : n ≤ cfg3.N) :
    PhiS_r3 V c n h ⊢ iprop(iprop((∃ d, owns (c : Thread nD τ) scM_r3 fullShare d) ∗ restBut_r3 c) ∗ (∃ r, prngReg c r)) := by
  cases n with
  | zero => rw [PhiS_r3_zero V c 0 h rfl, PhiA_r3_eq]
  | succ n =>
    rw [PhiS_r3_succ]
    iintro ⟨⟨HS0, HR⟩, Hg⟩
    isplitl [HS0 HR]
    · isplitl [HS0]; · iexists _; iexact HS0
      iexact HR
    iexact Hg

def dat_r3 (c : Dev nD) : Dat τ (Elt F) Unit ℕ (UR sig nD τ) ℕ cfg3 c where
  A w := V c (Pipeline.arrRef spec3 w)
  after w t := match w with
    | ⟨0, _⟩ => iblk_r3 V c 0 t
    | ⟨1, _⟩ => iblk_r3 V c 1 t
    | ⟨2, _⟩ => iblk_r3 V c 2 t
    | ⟨3, _⟩ => iblk_r3 V c 3 t
    | ⟨4, _⟩ => iblk_r3 V c 4 t
    | ⟨5, _⟩ => iblk_r3 V c 5 t
    | ⟨6, _⟩ => (outsAt_r3 V c t.val t.isLt).1
  Φ t := PhiS_r3 V c t.val (Nat.le_of_lt_succ t.isLt)
  q _ := fullShare
  owed _ := 0

theorem A_eq_r3 (c : Dev nD) (w : Fin cfg3.W) : (dat_r3 V c).A w = V c (Pipeline.arrRef spec3 w) := by
  dsimp only [dat_r3]

theorem PhiS_r3_castSucc (c : Dev nD) (t : Fin cfg3.N) :
    (dat_r3 V c).Φ t.castSucc = PhiS_r3 V c t.val (Nat.le_of_lt t.isLt) := by
  dsimp only [dat_r3]; simp only [Fin.coe_castSucc]

section
variable (c : Dev nD) (t : Fin cfg3.N)

theorem after_r3_0 : (dat_r3 V c).after 0 t = iblk_r3 V c 0 t := rfl
theorem after_r3_1 : (dat_r3 V c).after 1 t = iblk_r3 V c 1 t := rfl
theorem after_r3_2 : (dat_r3 V c).after 2 t = iblk_r3 V c 2 t := rfl
theorem after_r3_3 : (dat_r3 V c).after 3 t = iblk_r3 V c 3 t := rfl
theorem after_r3_4 : (dat_r3 V c).after 4 t = iblk_r3 V c 4 t := rfl
theorem after_r3_5 : (dat_r3 V c).after 5 t = iblk_r3 V c 5 t := rfl
theorem after_r3_6 : (dat_r3 V c).after 6 t = (outsAt_r3 V c t.val t.isLt).1 := rfl

theorem before_r3_0 (d) : (dat_r3 V c).before 0 t d = iblk_r3 V c 0 t :=
  ((dat_r3 V c).before_in_eq_fetched 0 rfl (fun _ => rfl) (fun _ _ _ => rfl) (fun _ => rfl) t d).trans rfl
theorem before_r3_1 (d) : (dat_r3 V c).before 1 t d = iblk_r3 V c 1 t :=
  ((dat_r3 V c).before_in_eq_fetched 1 rfl (fun _ => rfl) (fun _ _ _ => rfl) (fun _ => rfl) t d).trans rfl
theorem before_r3_2 (d) : (dat_r3 V c).before 2 t d = iblk_r3 V c 2 t :=
  ((dat_r3 V c).before_in_eq_fetched 2 rfl (fun _ => rfl) (fun _ _ _ => rfl) (fun _ => rfl) t d).trans rfl
theorem before_r3_3 (d) : (dat_r3 V c).before 3 t d = iblk_r3 V c 3 t :=
  ((dat_r3 V c).before_in_eq_fetched 3 rfl (fun _ => rfl) (fun _ _ _ => rfl) (fun _ => rfl) t d).trans rfl
theorem before_r3_4 (d) : (dat_r3 V c).before 4 t d = iblk_r3 V c 4 t :=
  ((dat_r3 V c).before_in_eq_fetched 4 rfl (fun _ => rfl) (fun _ _ _ => rfl) (fun _ => rfl) t d).trans rfl
theorem before_r3_5 (d) : (dat_r3 V c).before 5 t d = iblk_r3 V c 5 t :=
  ((dat_r3 V c).before_in_eq_fetched 5 rfl (fun _ => rfl) (fun _ _ _ => rfl) (fun _ => rfl) t d).trans rfl
end

end Cert.KernelIdeal.Hand

end
-- ==== Proof.KernelIdeal.R3.Body.lean ====
import proofs.«128115_j49460843381367_1_alg».proof.Proof.KernelIdeal.R3.Frame
import proofs.«128115_j49460843381367_1_alg».proof.Proof.LibDat

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre_r3 (c : Dev nD) (t : Fin cfg3.N) : sProp 𝕄 :=
  iprop((dat_r3 V c).Φ t.castSucc ∗ (dat_r3 V c).owesAt () t.castSucc
    ∗ (∃ d, owns (c : Thread nD τ) (ms_r3_0 t) fullShare ((dat_r3 V c).before 0 t d))
    ∗ (∃ d, owns (c : Thread nD τ) (ms_r3_1 t) fullShare ((dat_r3 V c).before 1 t d))
    ∗ (∃ d, owns (c : Thread nD τ) (ms_r3_2 t) fullShare ((dat_r3 V c).before 2 t d))
    ∗ (∃ d, owns (c : Thread nD τ) (ms_r3_3 t) fullShare ((dat_r3 V c).before 3 t d))
    ∗ (∃ d, owns (c : Thread nD τ) (ms_r3_4 t) fullShare ((dat_r3 V c).before 4 t d))
    ∗ (∃ d, owns (c : Thread nD τ) (ms_r3_5 t) fullShare ((dat_r3 V c).before 5 t d))
    ∗ (∃ d, owns (c : Thread nD τ) (ms_r3_6 t) fullShare ((dat_r3 V c).before 6 t d)))

def bodyPost_r3 (c : Dev nD) (t : Fin cfg3.N) : sProp 𝕄 :=
  iprop((dat_r3 V c).Φ t.succ ∗ (dat_r3 V c).owesAt () t.succ
    ∗ (dat_r3 V c).leavesExact 0 t
    ∗ (dat_r3 V c).leavesExact 1 t
    ∗ (dat_r3 V c).leavesExact 2 t
    ∗ (dat_r3 V c).leavesExact 3 t
    ∗ (dat_r3 V c).leavesExact 4 t
    ∗ (dat_r3 V c).leavesExact 5 t
    ∗ (dat_r3 V c).leavesExact 6 t)

set_option maxHeartbeats 8000000 in
theorem sound_body_r3 (c : Dev nD) (t : Fin cfg3.N) :
    bodyPre_r3 V c t ⊢ wp frame (wpE (defs₀ (F := F)) Variants.none c none) Set.univ (bodyAt3 t) (fun _ => bodyPost_r3 V c t) := by
  unfold bodyPre_r3 bodyPost_r3 bodyAt3
  simp only [before_r3_0, before_r3_1, before_r3_2, before_r3_3, before_r3_4, before_r3_5]
  rw [show (dat_r3 V c).owesAt () t.succ = (dat_r3 V c).owesAt () t.castSucc from rfl]
  rw [show (dat_r3 V c).Φ t.succ = PhiS_r3 V c (t.val + 1) t.isLt from rfl, PhiS_r3_succ]
  have hN : t.val < 256 := lt_of_lt_of_eq t.isLt (show cfg3.N = 256 from N_3)
  rw [Dat.leavesExact_live _ 0 t (live_r3 0 t (by decide)), after_r3_0,
    Dat.leavesExact_live _ 1 t (live_r3 1 t (by decide)), after_r3_1,
    Dat.leavesExact_live _ 2 t (live_r3 2 t (by decide)), after_r3_2,
    Dat.leavesExact_live _ 3 t (live_r3 3 t (by decide)), after_r3_3,
    Dat.leavesExact_live _ 4 t (live_r3 4 t (by decide)), after_r3_4,
    Dat.leavesExact_live _ 5 t (live_r3 5 t (by decide)), after_r3_5]
  by_cases h0 : t.val % 4 = 0
  · by_cases h1 : t.val % 4 = 3
    · exfalso; omega
    ·
      rw [Dat.leavesExact_idle (dat_r3 V c) 6 t (idleAt_r3_6 t (fun h => h1 ((hcond_r3_1 t).mp h))) (noFlush_r3_6 t (fun h => h1 ((hcond_r3_1 t).mp h)))]
      rw [outsAt_r3_A V c t h0 h1]
      unfold soutA_at_r3 sout_r3_A; (try dsimp only)
      rw [PhiS_r3_castSucc V c t]
      iintro ⟨HP, Ho, ⟨%d0, H0⟩, ⟨%d1, H1⟩, ⟨%d2, H2⟩, ⟨%d3, H3⟩, ⟨%d4, H4⟩, ⟨%d5, H5⟩, ⟨%d6, H6⟩⟩
      ihave HP := (PhiS_r3_any V c _ _) $$ HP
      icases HP with ⟨⟨HS0, HR⟩, Hg⟩
      iapply ((kernelRun_r3_A c (grid3.coords t) _ _ _ _ _ _ _ _ _ _ _ _ _ _ _ _ ((hcond_r3_0 t).mpr h0) (fun h => h1 ((hcond_r3_1 t).mp h)) (iblk_r3 V c 0 t) (iblk_r3 V c 1 t) (iblk_r3 V c 2 t)).2 Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_r3_A c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · by_cases h1 : t.val % 4 = 3
    ·
      rw [show (dat_r3 V c).leavesExact 6 t = owns (c : Thread nD τ) (ms_r3_6 t) fullShare ((dat_r3 V c).after 6 t) from by
        unfold Dat.leavesExact; rw [liveAt_r3_6 t ((hcond_r3_1 t).mpr h1)], after_r3_6]
      rw [outsAt_r3_C V c t h0 h1]
      unfold outC_at_r3 soutC_at_r3 out_r3_C sout_r3_C; (try dsimp only)
      have hz : t.val ≠ 0 := by omega
      rw [PhiS_r3_castSucc V c t, PhiS_r3_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun_r3_C c (grid3.coords t) _ _ _ _ _ _ _ _ _ _ _ _ _ _ _ _ (fun h => h0 ((hcond_r3_0 t).mp h)) ((hcond_r3_1 t).mpr h1) (iblk_r3 V c 0 t) (iblk_r3 V c 1 t) (iblk_r3 V c 2 t) (iblk_r3 V c 3 t) (iblk_r3 V c 4 t) (iblk_r3 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_r3_C c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover_r3_C c _ _ _ _ _ _ _ _ _ _ _ _ _ _ _ _ _ _ _ _ _ _ _ _ _ _)
    ·
      rw [Dat.leavesExact_idle (dat_r3 V c) 6 t (idleAt_r3_6 t (fun h => h1 ((hcond_r3_1 t).mp h))) (noFlush_r3_6 t (fun h => h1 ((hcond_r3_1 t).mp h)))]
      rw [outsAt_r3_B V c t h0 h1]
      unfold soutB_at_r3 sout_r3_B; (try dsimp only)
      have hz : t.val ≠ 0 := by omega
      rw [PhiS_r3_castSucc V c t, PhiS_r3_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun_r3_B c (grid3.coords t) _ _ _ _ _ _ _ _ _ _ _ _ _ _ _ _ (fun h => h0 ((hcond_r3_0 t).mp h)) (fun h => h1 ((hcond_r3_1 t).mp h)) (iblk_r3 V c 0 t) (iblk_r3 V c 1 t) (iblk_r3 V c 2 t) _).2 Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_r3_B c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation_r3 (c : Dev nD) : BodyObligation (dat_r3 (F := F) V c) (defs₀ (F := F)) Variants.none () Set.univ := fun t => by
  rw [bigSep_W3, bigSep_W3]
  exact sound_body_r3 V c t

theorem hin_r3 (c : Dev nD) : Pipeline.ΦA spec3 c ⊢ (dat_r3 V c).Φ 0 := by
  rw [show (dat_r3 V c).Φ 0 = PhiS_r3 V c 0 (Nat.zero_le _) from rfl, PhiS_r3_zero V c 0 _ rfl]
  try exact Idealize.SL.BI.Entails.refl _

theorem hout_r3 (c : Dev nD) : (dat_r3 V c).Φ (Fin.last cfg3.N) ⊢ Pipeline.ΦA spec3 c := by
  rw [PhiA_r3_eq]; exact PhiS_r3_any V c (Fin.last cfg3.N).val (Nat.le_of_lt_succ (Fin.last cfg3.N).isLt)

end Cert.KernelIdeal.Hand

end
-- ==== Proof.KernelIdeal.Fold.lean ====
import proofs.«128115_j49460843381367_1_alg».proof.Proof.KernelIdeal.R0.Body
import proofs.«128115_j49460843381367_1_alg».proof.Proof.KernelIdeal.R1.Body
import proofs.«128115_j49460843381367_1_alg».proof.Proof.KernelIdeal.R2.Body
import proofs.«128115_j49460843381367_1_alg».proof.Proof.KernelIdeal.R3.Body
import proofs.«128115_j49460843381367_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)
abbrev Vr1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat_r0 (Vr1 m) c).arrAt w cfg0.N
theorem W2_arr (c : Dev nD) (w : Fin cfg0.W) :
    W2 m c (Proc.devRef .tc (Pipeline.arrRef spec0 w)) = (dat_r0 (Vr1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev Vr2 : (c : Dev nD) → (b : Ref sig .tc) → Buf (Elt F) ((c : Thread nD τ).loc b) := fun c b => W2 m c b
theorem hF_r0 (c : Dev nD) (w : Fin cfg0.W) : (dat_r0 (Vr1 m) c).arrAt w cfg0.N = Vr2 m c (Pipeline.arrRef spec0 w) :=
  (W2_arr m c w).symm
theorem hrest_r0 (c : Dev nD) : ∀ b, b ∉ Finset.univ.image (Pipeline.arrRef spec0) → Vr2 m c b = Vr1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev Vr3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat_r1 (Vr3 m) c).arrAt w cfg1.N
theorem W4_arr (c : Dev nD) (w : Fin cfg1.W) :
    W4 m c (Proc.devRef .tc (Pipeline.arrRef spec1 w)) = (dat_r1 (Vr3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev Vr4 : (c : Dev nD) → (b : Ref sig .tc) → Buf (Elt F) ((c : Thread nD τ).loc b) := fun c b => W4 m c b
theorem hF_r1 (c : Dev nD) (w : Fin cfg1.W) : (dat_r1 (Vr3 m) c).arrAt w cfg1.N = Vr4 m c (Pipeline.arrRef spec1 w) :=
  (W4_arr m c w).symm
theorem hrest_r1 (c : Dev nD) : ∀ b, b ∉ Finset.univ.image (Pipeline.arrRef spec1) → Vr4 m c b = Vr3 m c b :=
  fun b hb => W4_of_ne m c b fun w e => hb (Finset.mem_image.mpr ⟨w, Finset.mem_univ _, e⟩)

abbrev W5 : Dev nD → Valuation τ sig (Elt F) := fun c => StableHlo.after hostOps2 (W4 m c)
abbrev Vr5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat_r2 (Vr5 m) c).arrAt w cfg2.N
theorem W6_arr (c : Dev nD) (w : Fin cfg2.W) :
    W6 m c (Proc.devRef .tc (Pipeline.arrRef spec2 w)) = (dat_r2 (Vr5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev Vr6 : (c : Dev nD) → (b : Ref sig .tc) → Buf (Elt F) ((c : Thread nD τ).loc b) := fun c b => W6 m c b
theorem hF_r2 (c : Dev nD) (w : Fin cfg2.W) : (dat_r2 (Vr5 m) c).arrAt w cfg2.N = Vr6 m c (Pipeline.arrRef spec2 w) :=
  (W6_arr m c w).symm
theorem hrest_r2 (c : Dev nD) : ∀ b, b ∉ Finset.univ.image (Pipeline.arrRef spec2) → Vr6 m c b = Vr5 m c b :=
  fun b hb => W6_of_ne m c b fun w e => hb (Finset.mem_image.mpr ⟨w, Finset.mem_univ _, e⟩)

abbrev W7 : Dev nD → Valuation τ sig (Elt F) := fun c => StableHlo.after hostOps3 (W6 m c)
abbrev Vr7 : (c : Dev nD) → (b : Ref sig .tc) → Buf (Elt F) ((c : Thread nD τ).loc b) := fun c b => W7 m c b

def W8 (c : Dev nD) : Valuation τ sig (Elt F) :=
  Pipeline.withArrays spec3 c (W7 m c) fun w => (dat_r3 (Vr7 m) c).arrAt w cfg3.N
theorem W8_arr (c : Dev nD) (w : Fin cfg3.W) :
    W8 m c (Proc.devRef .tc (Pipeline.arrRef spec3 w)) = (dat_r3 (Vr7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev Vr8 : (c : Dev nD) → (b : Ref sig .tc) → Buf (Elt F) ((c : Thread nD τ).loc b) := fun c b => W8 m c b
theorem hF_r3 (c : Dev nD) (w : Fin cfg3.W) : (dat_r3 (Vr7 m) c).arrAt w cfg3.N = Vr8 m c (Pipeline.arrRef spec3 w) :=
  (W8_arr m c w).symm
theorem hrest_r3 (c : Dev nD) : ∀ b, b ∉ Finset.univ.image (Pipeline.arrRef spec3) → Vr8 m c b = Vr7 m c b :=
  fun b hb => W8_of_ne m c b fun w e => hb (Finset.mem_image.mpr ⟨w, Finset.mem_univ _, e⟩)

abbrev W9 : Dev nD → Valuation τ sig (Elt F) := fun c => StableHlo.after hostOps4 (W8 m c)

theorem W1_of (c : Dev nD) (r : Ref sig .tc) (h : r ∉ (hostOps0_W : List (Ref sig .tc))) : W1 m c (Proc.devRef .tc r) = W0 m c (Proc.devRef .tc r) :=
  StableHlo.after_of_writes_sub hostOps0 _ hostOps0_writes h
theorem W3_of (c : Dev nD) (r : Ref sig .tc) (h : r ∉ (hostOps1_W : List (Ref sig .tc))) : W3 m c (Proc.devRef .tc r) = W2 m c (Proc.devRef .tc r) :=
  StableHlo.after_of_writes_sub hostOps1 _ hostOps1_writes h
theorem W5_of (c : Dev nD) (r : Ref sig .tc) (h : r ∉ (hostOps2_W : List (Ref sig .tc))) : W5 m c (Proc.devRef .tc r) = W4 m c (Proc.devRef .tc r) :=
  StableHlo.after_of_writes_sub hostOps2 _ hostOps2_writes h
theorem W7_of (c : Dev nD) (r : Ref sig .tc) (h : r ∉ (hostOps3_W : List (Ref sig .tc))) : W7 m c (Proc.devRef .tc r) = W6 m c (Proc.devRef .tc r) :=
  StableHlo.after_of_writes_sub hostOps3 _ hostOps3_writes h
theorem W9_of (c : Dev nD) (r : Ref sig .tc) (h : r ∉ (hostOps4_W : List (Ref sig .tc))) : W9 m c (Proc.devRef .tc r) = W8 m c (Proc.devRef .tc r) :=
  StableHlo.after_of_writes_sub hostOps4 _ hostOps4_writes h

def pdats : (p : Fin 4) → (c : Dev nD) → Dat τ (Elt F) Unit ℕ (UR sig nD τ) ℕ (Pipeline.pin (pcfgs (F := F)) adm p) c
  | ⟨0, _⟩ => fun c => dat_r0 (Vr1 m) c
  | ⟨1, _⟩ => fun c => dat_r1 (Vr3 m) c
  | ⟨2, _⟩ => fun c => dat_r2 (Vr5 m) c
  | ⟨3, _⟩ => fun c => dat_r3 (Vr7 m) c

end Cert.KernelIdeal.Hand

end
-- ==== Proof.KernelIdeal.Launch.lean ====
import proofs.«128115_j49460843381367_1_alg».proof.Proof.KernelIdeal.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱n : Variants := Variants.none

abbrev Ln : GSem nD τ sig → Finset Unit := fun _ => ∅
abbrev lvn : GSem nD τ sig → Unit → ℕ := fun _ _ => 0

abbrev Rst (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- A layer call as a segment between the contents `Wi` and `Wo`, from its body obligation and its invariant's two ends.
set_option backward.isDefEq.respectTransparency.types false in
def regOf (p : Fin 4) (L : Pipeline.LaunchFacts (nD := nD) (τ := τ) cfgs p) (Wi Wo : Dev nD → Valuation τ sig (Elt F))
    (hq : ∀ c w, (pdats m p c).q w = fullShare) (howed : ∀ c t, (pdats m p c).owed t = 0) (hrec : ∀ c ι, ι ∈ (pdats m p c).recorded 0)
    (hA : ∀ c w, (pdats m p c).A w = Wi c (Pipeline.arrRef (Pipeline.pin (pcfgs (F := F)) adm p).spec w))
    (hbody : ∀ c, BodyObligation (pdats m p c) (defs₀ (F := F)) 𝒱n () Set.univ)
    (hin : ∀ c, Pipeline.ΦA (Pipeline.pin (pcfgs (F := F)) adm p).spec c ⊢ (pdats m p c).Φ 0)
    (hout : ∀ c, (pdats m p c).Φ (Fin.last _) ⊢ Pipeline.ΦA (Pipeline.pin (pcfgs (F := F)) adm p).spec c)
    (hF : ∀ c w, (pdats m p c).arrAt w (Pipeline.pin (pcfgs (F := F)) adm p).N = Wo c (Pipeline.arrRef (Pipeline.pin (pcfgs (F := F)) adm p).spec w))
    (hrest : ∀ c (b : Ref sig .tc), b ∉ Finset.univ.image (Pipeline.arrRef (Pipeline.pin (pcfgs (F := F)) adm p).spec) → Wo c b = Wi c b) :
    Pipeline.RegionSeg (pcfgs (F := F)) adm (pdats m) () defs₀ 𝒱n Ln lvn p where
  win := L.win.to₀
  block_pos := L.block_pos
  stage_whole := L.stage_whole
  K := PEmpty
  osem k := k.elim
  ho := Pipeline.OwnSemFacts.none _
  hbody c := (hbody c).loose
  hwaits := Pipeline.hwaits_of_owed_zero _ _ _ _ Ln lvn p howed
  pre c := iprop(StableHlo.held (c : Thread nD τ) (Pipeline.ucRefs τ sig) (Wi c) ∗ Rst c)
  post c := iprop(StableHlo.held (c : Thread nD τ) (Pipeline.ucRefs τ sig) (Wo c) ∗ Rst c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Wi c b)
  hentry c := by
    rw [Pipeline.ownSems0_none]; unfold Pipeline.Dat.owesAt Pipeline.owesWithin; rw [howed c]
    have hsplit := Pipeline.arrays_of_unscopedBufs (p := p) (pcfgs (F := F)) adm (pdats m) L.win L.arr_whole c
      ((pdats m p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (hrec c _)
      iexact HO
    isplitl [Hp]; · iexact Hp
    iexact Hrest
  hin c := by
    have h := hin c
    unfold Pipeline.ΦA at h
    iintro ⟨Hp, -, Hr⟩
    iapply h
    isplitl [Hr]; · iexact Hr
    iexact Hp
  hout c := by
    have h := hout c
    rw [Pipeline.ownSems0_none]; unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      L.win L.arr_whole c (pdats m) ((pdats m p c).share_full (hq c))
      (fun b => Wi c b) (fun b => Wo c b) ((pdats m p c).arrAt · _) (hF c) (hrest c)
    rw [Pipeline.unscopedBufs_held] at hjoin
    unfold Pipeline.Dat.owesAt Pipeline.owesWithin; rw [howed c]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

set_option backward.isDefEq.respectTransparency.types false in
abbrev reg_r0 := regOf m 0 launch0 (W1 m) (W2 m) (fun _ _ => rfl) (fun _ _ => rfl) (fun _ _ => trivial) (fun _ _ => rfl)
  (body_obligation_r0 (Vr1 m)) (hin_r0 (Vr1 m)) (hout_r0 (Vr1 m)) (hF_r0 m) (hrest_r0 m)
set_option backward.isDefEq.respectTransparency.types false in
abbrev reg_r1 := regOf m 1 launch1 (W3 m) (W4 m) (fun _ _ => rfl) (fun _ _ => rfl) (fun _ _ => trivial) (fun _ _ => rfl)
  (body_obligation_r1 (Vr3 m)) (hin_r1 (Vr3 m)) (hout_r1 (Vr3 m)) (hF_r1 m) (hrest_r1 m)
set_option backward.isDefEq.respectTransparency.types false in
abbrev reg_r2 := regOf m 2 launch2 (W5 m) (W6 m) (fun _ _ => rfl) (fun _ _ => rfl) (fun _ _ => trivial) (fun _ _ => rfl)
  (body_obligation_r2 (Vr5 m)) (hin_r2 (Vr5 m)) (hout_r2 (Vr5 m)) (hF_r2 m) (hrest_r2 m)
set_option backward.isDefEq.respectTransparency.types false in
abbrev reg_r3 := regOf m 3 launch3 (W7 m) (W8 m) (fun _ _ => rfl) (fun _ _ => rfl) (fun _ _ => trivial) (fun _ _ => rfl)
  (body_obligation_r3 (Vr7 m)) (hin_r3 (Vr7 m)) (hout_r3 (Vr7 m)) (hF_r3 m) (hrest_r3 m)

abbrev segs : List (Pipeline.Seg (pcfgs (F := F)) adm (pdats m) () defs₀ 𝒱n Ln lvn) :=
  [ .host (hseg hostOps0 hostOps0_sub hostOps0_fresh (W0 m)),
    .region (reg_r0 m),
    .host (hseg hostOps1 hostOps1_sub hostOps1_fresh (W2 m)),
    .region (reg_r1 m),
    .host (hseg hostOps2 hostOps2_sub hostOps2_fresh (W4 m)),
    .region (reg_r2 m),
    .host (hseg hostOps3 hostOps3_sub hostOps3_fresh (W6 m)),
    .region (reg_r3 m),
    .host (hseg hostOps4 hostOps4_sub hostOps4_fresh (W8 m)) ]

theorem main_run (c : Dev nD) : main (F := F) c = Pipeline.Seg.run (segs m) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱n Ln lvn m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c))
    (Tₙ := fun c => iprop(StableHlo.held (c : Thread nD τ) (Pipeline.ucRefs τ sig) (W9 m c) ∗ ∃ r, prngReg c r))
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m c) ∗ Rst c) ⊢ _
        iintro ⟨Hh, Hp, HO⟩
        isplitl [Hh Hp]
        · isplitl [Hh]; · iexact Hh
          iexact Hp
        iexact HO⟩)
    (hinit := by
      refine Pipeline.initEach Ln lvn fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

end Cert.KernelIdeal.Hand

end
-- ==== Proof.KernelIdeal.Args.lean ====
import proofs.«128115_j49460843381367_1_alg».proof.Proof.KernelIdeal.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

section
variable (V : (c : Dev nD) → (b : Ref sig .tc) → Buf (Elt F) ((c : Thread nD τ).loc b))
theorem arrAt_in_r0 (c : Dev nD) (w : Fin cfg0.W) (hw : w ≠ 6) : (dat_r0 V c).arrAt w cfg0.N = V c (Pipeline.arrRef spec0 w) := by
  fin_cases w <;> first | exact absurd rfl hw | exact (dat_r0 V c).arrAt_in _ rfl _
theorem arrAt_in_r1 (c : Dev nD) (w : Fin cfg1.W) (hw : w ≠ 6) : (dat_r1 V c).arrAt w cfg1.N = V c (Pipeline.arrRef spec1 w) := by
  fin_cases w <;> first | exact absurd rfl hw | exact (dat_r1 V c).arrAt_in _ rfl _
theorem arrAt_in_r2 (c : Dev nD) (w : Fin cfg2.W) (hw : w ≠ 6) : (dat_r2 V c).arrAt w cfg2.N = V c (Pipeline.arrRef spec2 w) := by
  fin_cases w <;> first | exact absurd rfl hw | exact (dat_r2 V c).arrAt_in _ rfl _
theorem arrAt_in_r3 (c : Dev nD) (w : Fin cfg3.W) (hw : w ≠ 6) : (dat_r3 V c).arrAt w cfg3.N = V c (Pipeline.arrRef spec3 w) := by
  fin_cases w <;> first | exact absurd rfl hw | exact (dat_r3 V c).arrAt_in _ rfl _
end

-- Across one layer (its host lines, then its call) only those lines' results and the layer's output change.
theorem W2_W0 (c : Dev nD) (b : Ref sig .tc) (h : b ∉ (hostOps0_W : List (Ref sig .tc)) ∧ b ≠ main_v12) : W2 m c (Proc.devRef .tc b) = W0 m c (Proc.devRef .tc b) := by
  refine Eq.trans ?_ (W1_of m c b h.1)
  by_cases hw : ∃ w, Pipeline.arrRef spec0 w = b
  · obtain ⟨w, rfl⟩ := hw
    exact (W2_arr m c w).trans (arrAt_in_r0 (Vr1 m) c w fun e => h.2 (by subst e; rfl))
  · exact W2_of_ne m c b fun w e => hw ⟨w, e⟩
theorem W4_W2 (c : Dev nD) (b : Ref sig .tc) (h : b ∉ (hostOps1_W : List (Ref sig .tc)) ∧ b ≠ main_v25) : W4 m c (Proc.devRef .tc b) = W2 m c (Proc.devRef .tc b) := by
  refine Eq.trans ?_ (W3_of m c b h.1)
  by_cases hw : ∃ w, Pipeline.arrRef spec1 w = b
  · obtain ⟨w, rfl⟩ := hw
    exact (W4_arr m c w).trans (arrAt_in_r1 (Vr3 m) c w fun e => h.2 (by subst e; rfl))
  · exact W4_of_ne m c b fun w e => hw ⟨w, e⟩
theorem W6_W4 (c : Dev nD) (b : Ref sig .tc) (h : b ∉ (hostOps2_W : List (Ref sig .tc)) ∧ b ≠ main_v38) : W6 m c (Proc.devRef .tc b) = W4 m c (Proc.devRef .tc b) := by
  refine Eq.trans ?_ (W5_of m c b h.1)
  by_cases hw : ∃ w, Pipeline.arrRef spec2 w = b
  · obtain ⟨w, rfl⟩ := hw
    exact (W6_arr m c w).trans (arrAt_in_r2 (Vr5 m) c w fun e => h.2 (by subst e; rfl))
  · exact W6_of_ne m c b fun w e => hw ⟨w, e⟩
theorem W8_W6 (c : Dev nD) (b : Ref sig .tc) (h : b ∉ (hostOps3_W : List (Ref sig .tc)) ∧ b ≠ main_v51) : W8 m c (Proc.devRef .tc b) = W6 m c (Proc.devRef .tc b) := by
  refine Eq.trans ?_ (W7_of m c b h.1)
  by_cases hw : ∃ w, Pipeline.arrRef spec3 w = b
  · obtain ⟨w, rfl⟩ := hw
    exact (W8_arr m c w).trans (arrAt_in_r3 (Vr7 m) c w fun e => h.2 (by subst e; rfl))
  · exact W8_of_ne m c b fun w e => hw ⟨w, e⟩

abbrev Kept2 (b : Ref sig .tc) : Prop := b ∉ (hostOps0_W : List (Ref sig .tc)) ∧ b ≠ main_v12
abbrev Kept4 (b : Ref sig .tc) : Prop := (b ∉ (hostOps1_W : List (Ref sig .tc)) ∧ b ≠ main_v25) ∧ Kept2 b
abbrev Kept6 (b : Ref sig .tc) : Prop := (b ∉ (hostOps2_W : List (Ref sig .tc)) ∧ b ≠ main_v38) ∧ Kept4 b
abbrev Kept8 (b : Ref sig .tc) : Prop := (b ∉ (hostOps3_W : List (Ref sig .tc)) ∧ b ≠ main_v51) ∧ Kept6 b

-- Hence an array that is no host result and no layer output holds its launch contents at every stage.
theorem W2_arg (c : Dev nD) (b : Ref sig .tc) (h : Kept2 b) : W2 m c (Proc.devRef .tc b) = m ((c : Thread nD τ).loc b) := (W2_W0 m c b h).trans rfl
theorem W4_arg (c : Dev nD) (b : Ref sig .tc) (h : Kept4 b) : W4 m c (Proc.devRef .tc b) = m ((c : Thread nD τ).loc b) := (W4_W2 m c b h.1).trans (W2_arg m c b h.2)
theorem W6_arg (c : Dev nD) (b : Ref sig .tc) (h : Kept6 b) : W6 m c (Proc.devRef .tc b) = m ((c : Thread nD τ).loc b) := (W6_W4 m c b h.1).trans (W4_arg m c b h.2)
theorem W8_arg (c : Dev nD) (b : Ref sig .tc) (h : Kept8 b) : W8 m c (Proc.devRef .tc b) = m ((c : Thread nD τ).loc b) := (W8_W6 m c b h.1).trans (W6_arg m c b h.2)
theorem W9_arg (c : Dev nD) (b : Ref sig .tc) (h : b ∉ (hostOps4_W : List (Ref sig .tc)) ∧ Kept8 b) : W9 m c (Proc.devRef .tc b) = m ((c : Thread nD τ).loc b) :=
  (W9_of m c b h.1).trans (W8_arg m c b h.2)

end Cert.KernelIdeal.Hand

end
-- ==== Proof.KernelIdeal.Frames.lean ====
import proofs.«128115_j49460843381367_1_alg».proof.Proof.KernelIdeal.Launch
import proofs.«128115_j49460843381367_1_alg».proof.Proof.KernelIdeal.Args

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W9_arg m c main_arg0 (by decide)),
     (h c _ (mem_uc main_arg1 (by decide))).trans (W9_arg m c main_arg1 (by decide)),
     (h c _ (mem_uc main_arg2 (by decide))).trans (W9_arg m c main_arg2 (by decide)),
     (h c _ (mem_uc main_arg3 (by decide))).trans (W9_arg m c main_arg3 (by decide)),
     (h c _ (mem_uc main_arg4 (by decide))).trans (W9_arg m c main_arg4 (by decide)),
     (h c _ (mem_uc main_arg5 (by decide))).trans (W9_arg m c main_arg5 (by decide))⟩) (run_all m ρ)

end Cert.KernelIdeal.Hand

end
-- ==== Proof.KernelIdeal.R0.Pieces.lean ====
import proofs.«128115_j49460843381367_1_alg».proof.Proof.KernelIdeal.R0.Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz_r0 : (![0, 0] : Fin 2 → Nat) = fun _ => 0 := funext fun a => by fin_cases a <;> rfl

theorem soutA_at_r0_eq (c : Dev nD) (t : Fin cfg0.N) (h0 : t.val % 4 = 0) (h1 : ¬t.val % 4 = 3) :
    soutA_at_r0 V c t h0 h1 = k0_pay2 (iblk_r0 V c 0 t) (iblk_r0 V c 1 t) (iblk_r0 V c 2 t) (k0_pay1 (F := F)) := by
  unfold soutA_at_r0 sout_r0_A
  rw [View.read_writes_eq_canon _ _ _ (scover_r0_A _ _ _ _ _ _ _ _ _ _ _ _ _ _ _ _ _ _ _ _ _ _ _)]
  unfold kernelRun_r0_A
  dsimp only
  sl_unfold_words
  rw [View.canon_cons_unit_zero (S := S512x512) hz_r0, View.readCov_unit_zero (S := S512x512) _ hz_r0]
  simp only [View.readAt_eq_ld, (hs_r0_0 t).read_unread, (hs_r0_1 t).read_unread, (hs_r0_2 t).read_unread,
    View.ld_unit_zero (S := S512x1024) hz_r0]

theorem soutB_at_r0_eq (c : Dev nD) (t : Fin cfg0.N) (h0 : ¬t.val % 4 = 0) (h1 : ¬t.val % 4 = 3) (xs0 : Vec F S512x512 .f32) :
    soutB_at_r0 V c t h0 h1 xs0 = k0_pay2 (iblk_r0 V c 0 t) (iblk_r0 V c 1 t) (iblk_r0 V c 2 t) xs0 := by
  unfold soutB_at_r0 sout_r0_B
  rw [View.read_writes_eq_canon _ _ _ (scover_r0_B _ _ _ _ _ _ _ _ _ _ _ _ _ _ _ _ _ _ _ _ _ _ _ _)]
  unfold kernelRun_r0_B
  dsimp only
  sl_unfold_words
  rw [View.canon_unit_zero hz_r0]
  simp only [View.readAt_eq_ld, (hs_r0_0 t).read_unread, (hs_r0_1 t).read_unread, (hs_r0_2 t).read_unread,
    (Memref.isWhole_whole cc0_scratch0).read_unread, View.ld_unit_zero (S := S512x1024) hz_r0, View.ld_unit_zero (S := S512x512) hz_r0]

theorem soutC_at_r0_eq (c : Dev nD) (t : Fin cfg0.N) (h0 : ¬t.val % 4 = 0) (h1 : t.val % 4 = 3) (xs0 : Vec F S512x512 .f32) :
    soutC_at_r0 V c t h0 h1 xs0 = k0_pay2 (iblk_r0 V c 0 t) (iblk_r0 V c 1 t) (iblk_r0 V c 2 t) xs0 := by
  unfold soutC_at_r0 sout_r0_C
  rw [View.read_writes_eq_canon _ _ _ (scover_r0_C _ _ _ _ _ _ _ _ _ _ _ _ _ _ _ _ _ _ _ _ _ _ _ _ _ _ _)]
  unfold kernelRun_r0_C
  dsimp only
  sl_unfold_words
  rw [View.canon_unit_zero hz_r0]
  simp only [View.readAt_eq_ld, (hs_r0_0 t).read_unread, (hs_r0_1 t).read_unread, (hs_r0_2 t).read_unread,
    (Memref.isWhole_whole cc0_scratch0).read_unread, View.ld_unit_zero (S := S512x1024) hz_r0, View.ld_unit_zero (S := S512x512) hz_r0]

theorem outC_at_r0_eq (c : Dev nD) (t : Fin cfg0.N) (h0 : ¬t.val % 4 = 0) (h1 : t.val % 4 = 3) (xs0 : Vec F S512x512 .f32) :
    outC_at_r0 V c t h0 h1 xs0 = k0_pay3 (iblk_r0 V c 3 t) (iblk_r0 V c 4 t) (iblk_r0 V c 5 t)
      (k0_pay2 (iblk_r0 V c 0 t) (iblk_r0 V c 1 t) (iblk_r0 V c 2 t) xs0) := by
  unfold outC_at_r0 out_r0_C
  rw [View.read_writes_eq_canon _ _ _ (cover_r0_C _ _ _ _ _ _ _ _ _ _ _ _ _ _ _ _ _ _ _ _ _ _ _ _ _ _ _)]
  unfold kernelRun_r0_C
  dsimp only
  sl_unfold_words
  rw [View.canon_unit_zero hz_r0]
  simp only [View.readCov_unit_zero (S := S512x512) _ hz_r0, View.readAt_eq_ld, (hs_r0_0 t).read_unread, (hs_r0_1 t).read_unread, (hs_r0_2 t).read_unread,
    (hs_r0_3 t).read_unread, (hs_r0_4 t).read_unread, (hs_r0_5 t).read_unread,
    (Memref.isWhole_whole cc0_scratch0).read_unread, View.ld_unit_zero (S := S512x1024) hz_r0, View.ld_unit_zero (S := S512x512) hz_r0,
    View.ld_unit_zero (S := S1x512) hz_r0]

end Cert.KernelIdeal.Hand

end
-- ==== Proof.KernelIdeal.Matmul.lean ====
import proofs.«128115_j49460843381367_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx
open Cert.KernelIdeal Cert.KernelIdeal.Gen

theorem lhs_dot_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl

theorem lhs_dot_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q

theorem rhs_dot_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl

theorem rhs_dot_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

theorem matmul_apply (a b : FVec Ideal S512x1024 .bf16) (p q : Fin 512) :
    FloatOps.matmul dot_S512x1024_S512x1024_S512x512_1_1_0_0_n_n none a b (constant S512x512 .f32 0x00000000#32) (ix2 p q)
      = ∑ r : Fin 1024, a (ix2 p r) * b (ix2 q r) := by
  rw [Ideal.matmul_constant_zero_apply, ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 p q) ((contrEquiv1 dot_S512x1024_S512x1024_S512x512_1_1_0_0_n_n 1024 rfl rfl).symm k) = ix2 p k := funext fun c => Fin.ext (by
    match c with
    | ⟨0, _⟩ => exact lhs_dot_0 _ _
    | ⟨1, _⟩ => exact (lhs_dot_1 _ _).trans hk)
  have er : dot_S512x1024_S512x1024_S512x512_1_1_0_0_n_n.rhsIdx (ix2 p q) ((contrEquiv1 dot_S512x1024_S512x1024_S512x512_1_1_0_0_n_n 1024 rfl rfl).symm k) = ix2 q k := funext fun c => Fin.ext (by
    match c with
    | ⟨0, _⟩ => exact rhs_dot_0 _ _
    | ⟨1, _⟩ => exact (rhs_dot_1 _ _).trans hk)
  rw [el, er]

end Cert.KernelIdeal.Hand

end
-- ==== Proof.KernelIdeal.R0.PayIdx.lean ====
import proofs.«128115_j49460843381367_1_alg».proof.Proof.KernelIdeal.Matmul
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx
open Cert.KernelIdeal Cert.KernelIdeal.Gen

theorem pay1_r0_apply (j : S512x512.Idx) : (k0_pay1 (F := Ideal)) j = 0 := by
  unfold k0_pay1
  refine (congrFun (shapeCast_self _ _) j).trans ?_
  exact Ideal.ofBits_zero_f32

theorem pay2_r0_apply (x0 x1 x2 : Vec Ideal S512x1024 .f32) (acc : Vec Ideal S512x512 .f32) (p q : Fin 512) :
    k0_pay2 (F := Ideal) x0 x1 x2 acc (ix2 p q)
      = acc (ix2 p q) + ∑ r : Fin 1024, x0 (ix2 p r) * (x1 (ix2 q r) * x2 (ix2 q r)) := by
  unfold k0_pay2
  refine (congrFun (shapeCast_self _ _) (ix2 p q)).trans ?_
  refine congrArg (acc (ix2 p q) + ·) ?_
  refine (matmul_apply _ _ p q).trans ?_
  refine Finset.sum_congr rfl fun r _ => ?_
  simp only [shapeCast_self]
  rfl

theorem pay3_r0_apply (mu sg : Vec Ideal S1x512 .f32) (z acc : Vec Ideal S512x512 .f32) (p q : Fin 512) :
    k0_pay3 (F := Ideal) mu sg z acc (ix2 p q)
      = max (acc (ix2 p q) + Ideal.exp (mu (ix2 (0 : Fin 1) q) + sg (ix2 (0 : Fin 1) q) * z (ix2 p q))) 0 := by
  unfold k0_pay3
  show max (acc (ix2 p q) + Ideal.exp (broadcastTo S512x512 (shapeCast S1x512 mu _) _ (ix2 p q)
      + broadcastTo S512x512 (shapeCast S1x512 sg _) _ (ix2 p q) * shapeCast S512x512 z _ (ix2 p q))) (Ideal.ofBits .f32 0x00000000#32) = _
  rw [shapeCast_self, shapeCast_self, shapeCast_self, broadcastTo_1b_ab_apply, broadcastTo_1b_ab_apply,
    Ideal.ofBits_zero_f32]

end Cert.KernelIdeal.Hand

end
-- ==== Proof.Layer.lean ====
import Idealize.ShloMosaic.PureOps.Ideal
import Idealize.ShloMosaic.PureOps.Ideal.Laws
import Idealize.ShloMosaic.Lib.ValueIdx
import Mathlib.Logic.Equiv.Fin.Basic
import Mathlib.Data.Fintype.BigOperators
import Mathlib.Algebra.BigOperators.Fin

noncomputable section

namespace Cert.Layer

open Idealize.ShloMosaic Idealize.ShloMosaic.ValueIdx

abbrev SBH : Shape := ⟨2, ![4096, 4096]⟩

abbrev SRow : Shape := ⟨2, ![1, 4096]⟩

-- One layer at entry (b, o): max(Σ_i x[b,i] · (w[o,i] · mk[o,i]) + exp(mu[o] + sg[o] · z[b,o]), 0).
def layer (x w mk : SBH.Idx → EReal) (mu sg : SRow.Idx → EReal) (z : SBH.Idx → EReal) : SBH.Idx → EReal := fun j =>
  max ((∑ i : Fin 4096, x (ix2 (j 0) i) * (w (ix2 (j 1) i) * mk (ix2 (j 1) i)))
    + Ideal.exp (mu (ix2 (0 : Fin 1) (j 1)) + sg (ix2 (0 : Fin 1) (j 1)) * z j)) 0

def slabIx (s : Fin 4) (r : Fin 1024) : Fin 4096 := ⟨1024 * s.val + r.val, by omega⟩

-- The contraction added up slab by slab, 1024 indices at a time.
def partialDot (f : Fin 4096 → EReal) : ℕ → EReal
  | 0 => 0
  | n + 1 => partialDot f n + (if h : n < 4 then ∑ r : Fin 1024, f (slabIx ⟨n, h⟩ r) else 0)

theorem partialDot_succ (f : Fin 4096 → EReal) (k : ℕ) (h : k < 4) :
    partialDot f (k + 1) = partialDot f k + ∑ r : Fin 1024, f (slabIx ⟨k, h⟩ r) := by
  show partialDot f k + (if h' : k < 4 then ∑ r : Fin 1024, f (slabIx ⟨k, h'⟩ r) else 0) = _
  rw [dif_pos h]

-- Every i < 4096 is 1024 · s + r for exactly one slab s and offset r, so four slabs are the whole sum.
theorem partialDot_four (f : Fin 4096 → EReal) : partialDot f 4 = ∑ i : Fin 4096, f i := by

  have hsplit : ∑ i : Fin 4096, f i = ∑ s : Fin 4, ∑ r : Fin 1024, f (slabIx s r) := by
    rw [← Fintype.sum_prod_type' (fun (s : Fin 4) (r : Fin 1024) => f (slabIx s r))]
    refine (Fintype.sum_equiv (finProdFinEquiv (m := 4) (n := 1024)) _ _ ?_).symm
    rintro ⟨s, r⟩
    congr 1
    apply Fin.ext
    simp only [slabIx, finProdFinEquiv_apply_val]
    omega
  rw [hsplit, Fin.sum_univ_four]
  simp only [partialDot, zero_add]
  rfl

end Cert.Layer

end
-- ==== Proof.KernelIdeal.R0.Value.lean ====
import proofs.«128115_j49460843381367_1_alg».proof.Proof.KernelIdeal.R0.Pieces
import proofs.«128115_j49460843381367_1_alg».proof.Proof.KernelIdeal.R0.PayIdx
import proofs.«128115_j49460843381367_1_alg».proof.Proof.Layer
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem idx_facts_r0 : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = t.val / 4 % 8 ∧ win0_2.index t (1 : Fin 2) = t.val % 4
    ∧ win0_3.index t (0 : Fin 2) = 0 ∧ win0_3.index t (1 : Fin 2) = t.val / 4 % 8
    ∧ win0_4.index t (0 : Fin 2) = 0 ∧ win0_4.index t (1 : Fin 2) = t.val / 4 % 8
    ∧ win0_5.index t (0 : Fin 2) = t.val / 32 ∧ win0_5.index t (1 : Fin 2) = t.val / 4 % 8
    ∧ win0_6.index t (0 : Fin 2) = t.val / 32 ∧ win0_6.index t (1 : Fin 2) = t.val / 4 % 8 :=
  (by decide +kernel : ∀ t : Fin grid0.N, _)

abbrev xarr_r0 (c : Dev nD) : Cert.Layer.SBH.Idx → EReal := V c (Pipeline.arrRef spec0 0)
abbrev warr_r0 (c : Dev nD) : Cert.Layer.SBH.Idx → EReal := V c (Pipeline.arrRef spec0 1)
abbrev marr_r0 (c : Dev nD) : Cert.Layer.SBH.Idx → EReal := V c (Pipeline.arrRef spec0 2)
abbrev muarr_r0 (c : Dev nD) : Cert.Layer.SRow.Idx → EReal := V c (Pipeline.arrRef spec0 3)
abbrev sgarr_r0 (c : Dev nD) : Cert.Layer.SRow.Idx → EReal := V c (Pipeline.arrRef spec0 4)
abbrev zarr_r0 (c : Dev nD) : Cert.Layer.SBH.Idx → EReal := V c (Pipeline.arrRef spec0 5)

abbrev xblk_r0 (c : Dev nD) (t : Fin cfg0.N) : Vec Ideal S512x1024 .f32 := iblk_r0 V c 0 t
abbrev wblk_r0 (c : Dev nD) (t : Fin cfg0.N) : Vec Ideal S512x1024 .f32 := iblk_r0 V c 1 t
abbrev mblk_r0 (c : Dev nD) (t : Fin cfg0.N) : Vec Ideal S512x1024 .f32 := iblk_r0 V c 2 t
abbrev mublk_r0 (c : Dev nD) (t : Fin cfg0.N) : Vec Ideal S1x512 .f32 := iblk_r0 V c 3 t
abbrev sgblk_r0 (c : Dev nD) (t : Fin cfg0.N) : Vec Ideal S1x512 .f32 := iblk_r0 V c 4 t
abbrev zblk_r0 (c : Dev nD) (t : Fin cfg0.N) : Vec Ideal S512x512 .f32 := iblk_r0 V c 5 t

theorem xblk_r0_apply (c : Dev nD) (t : Fin cfg0.N) (p : Fin 512) (r : Fin 1024) (a i : Fin 4096)
    (ha : a.val = 512 * (t.val / 32) + p.val) (hi : i.val = 1024 * (t.val % 4) + r.val) :
    xblk_r0 V c t (ix2 p r) = xarr_r0 V c (ix2 a i) := by
  obtain ⟨e0, e1, -⟩ := idx_facts_r0 t
  show xarr_r0 V c (((cfg0.win 0).blk t).view.emb (ix2 p r)) = _
  refine congrArg _ (funext fun ax => Fin.ext ?_)
  match ax with
  | ⟨0, _⟩ => show win0_0.index t (0 : Fin 2) * 512 + 1 * p.val = a.val; omega
  | ⟨1, _⟩ => show win0_0.index t (1 : Fin 2) * 1024 + 1 * r.val = i.val; omega

theorem wblk_r0_apply (c : Dev nD) (t : Fin cfg0.N) (q : Fin 512) (r : Fin 1024) (b i : Fin 4096)
    (hb : b.val = 512 * (t.val / 4 % 8) + q.val) (hi : i.val = 1024 * (t.val % 4) + r.val) :
    wblk_r0 V c t (ix2 q r) = warr_r0 V c (ix2 b i) := by
  obtain ⟨-, -, e0, e1, -⟩ := idx_facts_r0 t
  show warr_r0 V c (((cfg0.win 1).blk t).view.emb (ix2 q r)) = _
  refine congrArg _ (funext fun ax => Fin.ext ?_)
  match ax with
  | ⟨0, _⟩ => show win0_1.index t (0 : Fin 2) * 512 + 1 * q.val = b.val; omega
  | ⟨1, _⟩ => show win0_1.index t (1 : Fin 2) * 1024 + 1 * r.val = i.val; omega

theorem mblk_r0_apply (c : Dev nD) (t : Fin cfg0.N) (q : Fin 512) (r : Fin 1024) (b i : Fin 4096)
    (hb : b.val = 512 * (t.val / 4 % 8) + q.val) (hi : i.val = 1024 * (t.val % 4) + r.val) :
    mblk_r0 V c t (ix2 q r) = marr_r0 V c (ix2 b i) := by
  obtain ⟨-, -, -, -, e0, e1, -⟩ := idx_facts_r0 t
  show marr_r0 V c (((cfg0.win 2).blk t).view.emb (ix2 q r)) = _
  refine congrArg _ (funext fun ax => Fin.ext ?_)
  match ax with
  | ⟨0, _⟩ => show win0_2.index t (0 : Fin 2) * 512 + 1 * q.val = b.val; omega
  | ⟨1, _⟩ => show win0_2.index t (1 : Fin 2) * 1024 + 1 * r.val = i.val; omega

theorem mublk_r0_apply (c : Dev nD) (t : Fin cfg0.N) (q : Fin 512) (b : Fin 4096)
    (hb : b.val = 512 * (t.val / 4 % 8) + q.val) :
    mublk_r0 V c t (ix2 (0 : Fin 1) q) = muarr_r0 V c (ix2 (0 : Fin 1) b) := by
  obtain ⟨-, -, -, -, -, -, e0, e1, -⟩ := idx_facts_r0 t
  show muarr_r0 V c (((cfg0.win 3).blk t).view.emb (ix2 (0 : Fin 1) q)) = _
  refine congrArg _ (funext fun ax => Fin.ext ?_)
  match ax with
  | ⟨0, _⟩ => show win0_3.index t (0 : Fin 2) * 1 + 1 * (0 : Fin 1).val = (0 : Fin 1).val; omega
  | ⟨1, _⟩ => show win0_3.index t (1 : Fin 2) * 512 + 1 * q.val = b.val; omega

theorem sgblk_r0_apply (c : Dev nD) (t : Fin cfg0.N) (q : Fin 512) (b : Fin 4096)
    (hb : b.val = 512 * (t.val / 4 % 8) + q.val) :
    sgblk_r0 V c t (ix2 (0 : Fin 1) q) = sgarr_r0 V c (ix2 (0 : Fin 1) b) := by
  obtain ⟨-, -, -, -, -, -, -, -, e0, e1, -⟩ := idx_facts_r0 t
  show sgarr_r0 V c (((cfg0.win 4).blk t).view.emb (ix2 (0 : Fin 1) q)) = _
  refine congrArg _ (funext fun ax => Fin.ext ?_)
  match ax with
  | ⟨0, _⟩ => show win0_4.index t (0 : Fin 2) * 1 + 1 * (0 : Fin 1).val = (0 : Fin 1).val; omega
  | ⟨1, _⟩ => show win0_4.index t (1 : Fin 2) * 512 + 1 * q.val = b.val; omega

theorem zblk_r0_apply (c : Dev nD) (t : Fin cfg0.N) (p q : Fin 512) (a b : Fin 4096)
    (ha : a.val = 512 * (t.val / 32) + p.val) (hb : b.val = 512 * (t.val / 4 % 8) + q.val) :
    zblk_r0 V c t (ix2 p q) = zarr_r0 V c (ix2 a b) := by
  obtain ⟨-, -, -, -, -, -, -, -, -, -, e0, e1, -⟩ := idx_facts_r0 t
  show zarr_r0 V c (((cfg0.win 5).blk t).view.emb (ix2 p q)) = _
  refine congrArg _ (funext fun ax => Fin.ext ?_)
  match ax with
  | ⟨0, _⟩ => show win0_5.index t (0 : Fin 2) * 512 + 1 * p.val = a.val; omega
  | ⟨1, _⟩ => show win0_5.index t (1 : Fin 2) * 512 + 1 * q.val = b.val; omega

abbrev term_r0 (c : Dev nD) (a b : Fin 4096) : Fin 4096 → EReal :=
  fun i => xarr_r0 V c (ix2 a i) * (warr_r0 V c (ix2 b i) * marr_r0 V c (ix2 b i))

theorem slab_r0_eq (c : Dev nD) (t : Fin cfg0.N) (acc : Vec Ideal S512x512 .f32) (p q : Fin 512) (a b : Fin 4096)
    (ha : a.val = 512 * (t.val / 32) + p.val) (hb : b.val = 512 * (t.val / 4 % 8) + q.val) :
    k0_pay2 (F := Ideal) (iblk_r0 V c 0 t) (iblk_r0 V c 1 t) (iblk_r0 V c 2 t) acc (ix2 p q)
      = acc (ix2 p q) + ∑ r : Fin 1024, term_r0 V c a b (Cert.Layer.slabIx ⟨t.val % 4, Nat.mod_lt _ (by decide)⟩ r) := by
  refine (pay2_r0_apply (xblk_r0 V c t) (wblk_r0 V c t) (mblk_r0 V c t) acc p q).trans ?_
  refine congrArg (acc (ix2 p q) + ·) (Finset.sum_congr rfl fun r _ => ?_)
  rw [xblk_r0_apply V c t p r a (Cert.Layer.slabIx ⟨t.val % 4, Nat.mod_lt _ (by decide)⟩ r) ha rfl,
    wblk_r0_apply V c t q r b (Cert.Layer.slabIx ⟨t.val % 4, Nat.mod_lt _ (by decide)⟩ r) hb rfl,
    mblk_r0_apply V c t q r b (Cert.Layer.slabIx ⟨t.val % 4, Nat.mod_lt _ (by decide)⟩ r) hb rfl]

theorem accAt_r0_A (c : Dev nD) (t : Fin cfg0.N) (h0 : t.val % 4 = 0) (h1 : ¬t.val % 4 = 3) :
    (outsAt_r0 V c t.val t.isLt).2 = soutA_at_r0 V c t h0 h1 := by
  rw [outsAt_r0_A V c t h0 h1]

theorem accAt_r0_B (c : Dev nD) (t : Fin cfg0.N) (h0 : ¬t.val % 4 = 0) (h1 : ¬t.val % 4 = 3) :
    (outsAt_r0 V c t.val t.isLt).2
      = soutB_at_r0 V c t h0 h1 (outsAt_r0 V c (t.val - 1) (Nat.lt_of_le_of_lt (Nat.sub_le _ _) t.isLt)).2 := by
  rw [outsAt_r0_B V c t h0 h1]

theorem accAt_r0_C (c : Dev nD) (t : Fin cfg0.N) (h0 : ¬t.val % 4 = 0) (h1 : t.val % 4 = 3) :
    (outsAt_r0 V c t.val t.isLt).2
      = soutC_at_r0 V c t h0 h1 (outsAt_r0 V c (t.val - 1) (Nat.lt_of_le_of_lt (Nat.sub_le _ _) t.isLt)).2 := by
  rw [outsAt_r0_C V c t h0 h1]

theorem outAt_r0_C (c : Dev nD) (t : Fin cfg0.N) (h0 : ¬t.val % 4 = 0) (h1 : t.val % 4 = 3) :
    (outsAt_r0 V c t.val t.isLt).1
      = outC_at_r0 V c t h0 h1 (outsAt_r0 V c (t.val - 1) (Nat.lt_of_le_of_lt (Nat.sub_le _ _) t.isLt)).2 := by
  rw [outsAt_r0_C V c t h0 h1]

theorem acc_r0_first (c : Dev nD) (t : Fin cfg0.N) (h0 : t.val % 4 = 0) (p q : Fin 512) (a b : Fin 4096)
    (ha : a.val = 512 * (t.val / 32) + p.val) (hb : b.val = 512 * (t.val / 4 % 8) + q.val) :
    (outsAt_r0 V c t.val t.isLt).2 (ix2 p q) = Cert.Layer.partialDot (term_r0 V c a b) (t.val % 4 + 1) := by
  have h1 : ¬t.val % 4 = 3 := by omega
  rw [accAt_r0_A V c t h0 h1, soutA_at_r0_eq]
  refine (slab_r0_eq V c t _ p q a b ha hb).trans ?_
  rw [pay1_r0_apply, Cert.Layer.partialDot_succ _ _ (Nat.mod_lt _ (by decide))]
  refine congrArg (· + _) ?_
  rw [h0]
  rfl

theorem acc_r0_later (c : Dev nD) (t : Fin cfg0.N) (h0 : ¬t.val % 4 = 0) (p q : Fin 512) (a b : Fin 4096)
    (ha : a.val = 512 * (t.val / 32) + p.val) (hb : b.val = 512 * (t.val / 4 % 8) + q.val)
    (ih : (outsAt_r0 V c (t.val - 1) (Nat.lt_of_le_of_lt (Nat.sub_le _ _) t.isLt)).2 (ix2 p q)
      = Cert.Layer.partialDot (term_r0 V c a b) (t.val % 4)) :
    (outsAt_r0 V c t.val t.isLt).2 (ix2 p q) = Cert.Layer.partialDot (term_r0 V c a b) (t.val % 4 + 1) := by
  rw [Cert.Layer.partialDot_succ _ _ (Nat.mod_lt _ (by decide)), ← ih]
  by_cases h1 : t.val % 4 = 3
  · rw [accAt_r0_C V c t h0 h1, soutC_at_r0_eq]
    exact slab_r0_eq V c t _ p q a b ha hb
  · rw [accAt_r0_B V c t h0 h1, soutB_at_r0_eq]
    exact slab_r0_eq V c t _ p q a b ha hb

-- By induction on the point: inside a group of four points the accumulator is the sum of the slabs seen so far.
theorem acc_r0_eq (c : Dev nD) (n : ℕ) : ∀ (hn : n < cfg0.N) (p q : Fin 512) (a b : Fin 4096),
    a.val = 512 * (n / 32) + p.val → b.val = 512 * (n / 4 % 8) + q.val →
    (outsAt_r0 V c n hn).2 (ix2 p q) = Cert.Layer.partialDot (term_r0 V c a b) (n % 4 + 1) := by
  induction n using Nat.strong_induction_on with
  | _ n ih =>
    intro hn p q a b ha hb
    by_cases h0 : n % 4 = 0
    · exact acc_r0_first V c ⟨n, hn⟩ h0 p q a b ha hb
    · refine acc_r0_later V c ⟨n, hn⟩ h0 p q a b ha hb ?_
      have hprev := ih (n - 1) (by omega) (Nat.lt_of_le_of_lt (Nat.sub_le _ _) hn) p q a b (by omega) (by omega)
      rw [show (n - 1) % 4 + 1 = n % 4 by omega] at hprev
      exact hprev

abbrev layer_r0 (c : Dev nD) : Cert.Layer.SBH.Idx → EReal :=
  Cert.Layer.layer (xarr_r0 V c) (warr_r0 V c) (marr_r0 V c) (muarr_r0 V c) (sgarr_r0 V c) (zarr_r0 V c)

theorem out_r0_eq (c : Dev nD) (t : Fin cfg0.N) (h1 : t.val % 4 = 3) (p q : Fin 512) (a b : Fin 4096)
    (ha : a.val = 512 * (t.val / 32) + p.val) (hb : b.val = 512 * (t.val / 4 % 8) + q.val) :
    (outsAt_r0 V c t.val t.isLt).1 (ix2 p q) = layer_r0 V c (ix2 a b) := by
  have h0 : ¬t.val % 4 = 0 := by omega
  have hacc := acc_r0_eq V c t.val t.isLt p q a b ha hb
  rw [accAt_r0_C V c t h0 h1, soutC_at_r0_eq, show t.val % 4 + 1 = 4 by omega, Cert.Layer.partialDot_four] at hacc
  rw [outAt_r0_C V c t h0 h1, outC_at_r0_eq]
  refine (pay3_r0_apply (mublk_r0 V c t) (sgblk_r0 V c t) (zblk_r0 V c t) _ p q).trans ?_
  rw [hacc, mublk_r0_apply V c t q b hb, sgblk_r0_apply V c t q b hb, zblk_r0_apply V c t p q a b ha hb]
  rfl

theorem flushed_r0_eq (c : Dev nD) (t : Fin cfg0.N) (hf : (cfg0.win 6).flush t = true) :
    (dat_r0 V c).flushed 6 t = ((cfg0.win 6).blk t).view.read (Elt Ideal) (layer_r0 V c) := by
  have h1 : t.val % 4 = 3 := (flush0_6 t).mp hf
  have hN : cfg0.N = 256 := N_0
  have ht : t.val < cfg0.N := t.isLt
  obtain ⟨-, -, -, -, -, -, -, -, -, -, -, -, e0, e1⟩ := idx_facts_r0 t
  show (cfg0.win 6).cut (grid0.coords t) ((dat_r0 V c).after 6 t) = _
  rw [after_r0_6]
  funext j
  obtain ⟨p, q, rfl⟩ : ∃ (p : Fin 512) (q : Fin 512), j = ix2 p q := ⟨j 0, j 1, eq_ix2 j⟩
  have hemb : ((cfg0.win 6).blk t).view.emb (ix2 p q)
      = ix2 (⟨512 * (t.val / 32) + p.val, by omega⟩ : Fin 4096) (⟨512 * (t.val / 4 % 8) + q.val, by omega⟩ : Fin 4096) := by
    refine funext fun ax => Fin.ext ?_
    match ax with
    | ⟨0, _⟩ => show win0_6.index t (0 : Fin 2) * 512 + 1 * p.val = 512 * (t.val / 32) + p.val; omega
    | ⟨1, _⟩ => show win0_6.index t (1 : Fin 2) * 512 + 1 * q.val = 512 * (t.val / 4 % 8) + q.val; omega
  show (outsAt_r0 V c t.val t.isLt).1 (ix2 p q) = layer_r0 V c (((cfg0.win 6).blk t).view.emb (ix2 p q))
  rw [hemb]
  exact out_r0_eq V c t h1 p q _ _ rfl rfl

theorem mem_blk_r0 (t : Fin cfg0.N) (i : Cert.Layer.SBH.Idx) :
    i ∈ ((cfg0.win 6).blk t).view.set
      ↔ ∀ a : Fin 2, win0_6.index t a * S512x512.size a ≤ (i a).val ∧ (i a).val < win0_6.index t a * S512x512.size a + S512x512.size a := by
  show i ∈ ((View.whole (Pipeline.arrRef spec0 6)).slice (win0_6.rect t)).set ↔ _
  rw [View.set_slice_whole, Rect.mem_set_unit]
  exact Iff.rfl

theorem cover_r0 (i : Cert.Layer.SBH.Idx) :
    ∃ t : Fin cfg0.N, (cfg0.win 6).flush t = true ∧ i ∈ ((cfg0.win 6).blk t).view.set := by
  have hN : cfg0.N = 256 := N_0
  have hi0 : (i 0).val < 4096 := (i 0).isLt
  have hi1 : (i 1).val < 4096 := (i 1).isLt
  obtain ⟨t, ht⟩ : ∃ t : Fin cfg0.N, t.val = ((i 0).val / 512 * 8 + (i 1).val / 512) * 4 + 3 := ⟨⟨_, by omega⟩, rfl⟩
  obtain ⟨-, -, -, -, -, -, -, -, -, -, -, -, e0, e1⟩ := idx_facts_r0 t
  refine ⟨t, (flush0_6 t).mpr (by omega), ?_⟩
  rw [mem_blk_r0]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 512 ≤ (i 1).val ∧ (i 1).val < win0_6.index t (1 : Fin 2) * 512 + 512; omega

-- Each output entry lies in the block of exactly one last-slab point, which stores the layer's value there.
theorem arr_final_r0 (c : Dev nD) (x w mk : Cert.Layer.SBH.Idx → EReal) (mu sg : Cert.Layer.SRow.Idx → EReal) (z : Cert.Layer.SBH.Idx → EReal)
    (hx : V c (Pipeline.arrRef spec0 0) = x) (hw : V c (Pipeline.arrRef spec0 1) = w) (hmk : V c (Pipeline.arrRef spec0 2) = mk)
    (hmu : V c (Pipeline.arrRef spec0 3) = mu) (hsg : V c (Pipeline.arrRef spec0 4) = sg) (hz : V c (Pipeline.arrRef spec0 5) = z) :
    (dat_r0 (F := Ideal) V c).arrAt 6 cfg0.N = Cert.Layer.layer x w mk mu sg z := by
  subst hx hw hmk hmu hsg hz
  exact (dat_r0 V c).arrAt_eq_of_cover 6 (layer_r0 V c) (fun t hf => flushed_r0_eq V c t hf) (fun i => cover_r0 i)

end Cert.KernelIdeal.Hand

end
-- ==== Proof.KernelIdeal.R1.Pieces.lean ====
import proofs.«128115_j49460843381367_1_alg».proof.Proof.KernelIdeal.R1.Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz_r1 : (![0, 0] : Fin 2 → Nat) = fun _ => 0 := funext fun a => by fin_cases a <;> rfl

theorem soutA_at_r1_eq (c : Dev nD) (t : Fin cfg1.N) (h0 : t.val % 4 = 0) (h1 : ¬t.val % 4 = 3) :
    soutA_at_r1 V c t h0 h1 = k1_pay2 (iblk_r1 V c 0 t) (iblk_r1 V c 1 t) (iblk_r1 V c 2 t) (k1_pay1 (F := F)) := by
  unfold soutA_at_r1 sout_r1_A
  rw [View.read_writes_eq_canon _ _ _ (scover_r1_A _ _ _ _ _ _ _ _ _ _ _ _ _ _ _ _ _ _ _ _ _ _ _)]
  unfold kernelRun_r1_A
  dsimp only
  sl_unfold_words
  rw [View.canon_cons_unit_zero (S := S512x512) hz_r1, View.readCov_unit_zero (S := S512x512) _ hz_r1]
  simp only [View.readAt_eq_ld, (hs_r1_0 t).read_unread, (hs_r1_1 t).read_unread, (hs_r1_2 t).read_unread,
    View.ld_unit_zero (S := S512x1024) hz_r1]

theorem soutB_at_r1_eq (c : Dev nD) (t : Fin cfg1.N) (h0 : ¬t.val % 4 = 0) (h1 : ¬t.val % 4 = 3) (xs0 : Vec F S512x512 .f32) :
    soutB_at_r1 V c t h0 h1 xs0 = k1_pay2 (iblk_r1 V c 0 t) (iblk_r1 V c 1 t) (iblk_r1 V c 2 t) xs0 := by
  unfold soutB_at_r1 sout_r1_B
  rw [View.read_writes_eq_canon _ _ _ (scover_r1_B _ _ _ _ _ _ _ _ _ _ _ _ _ _ _ _ _ _ _ _ _ _ _ _)]
  unfold kernelRun_r1_B
  dsimp only
  sl_unfold_words
  rw [View.canon_unit_zero hz_r1]
  simp only [View.readAt_eq_ld, (hs_r1_0 t).read_unread, (hs_r1_1 t).read_unread, (hs_r1_2 t).read_unread,
    (Memref.isWhole_whole cc1_scratch0).read_unread, View.ld_unit_zero (S := S512x1024) hz_r1, View.ld_unit_zero (S := S512x512) hz_r1]

theorem soutC_at_r1_eq (c : Dev nD) (t : Fin cfg1.N) (h0 : ¬t.val % 4 = 0) (h1 : t.val % 4 = 3) (xs0 : Vec F S512x512 .f32) :
    soutC_at_r1 V c t h0 h1 xs0 = k1_pay2 (iblk_r1 V c 0 t) (iblk_r1 V c 1 t) (iblk_r1 V c 2 t) xs0 := by
  unfold soutC_at_r1 sout_r1_C
  rw [View.read_writes_eq_canon _ _ _ (scover_r1_C _ _ _ _ _ _ _ _ _ _ _ _ _ _ _ _ _ _ _ _ _ _ _ _ _ _ _)]
  unfold kernelRun_r1_C
  dsimp only
  sl_unfold_words
  rw [View.canon_unit_zero hz_r1]
  simp only [View.readAt_eq_ld, (hs_r1_0 t).read_unread, (hs_r1_1 t).read_unread, (hs_r1_2 t).read_unread,
    (Memref.isWhole_whole cc1_scratch0).read_unread, View.ld_unit_zero (S := S512x1024) hz_r1, View.ld_unit_zero (S := S512x512) hz_r1]

theorem outC_at_r1_eq (c : Dev nD) (t : Fin cfg1.N) (h0 : ¬t.val % 4 = 0) (h1 : t.val % 4 = 3) (xs0 : Vec F S512x512 .f32) :
    outC_at_r1 V c t h0 h1 xs0 = k1_pay3 (iblk_r1 V c 3 t) (iblk_r1 V c 4 t) (iblk_r1 V c 5 t)
      (k1_pay2 (iblk_r1 V c 0 t) (iblk_r1 V c 1 t) (iblk_r1 V c 2 t) xs0) := by
  unfold outC_at_r1 out_r1_C
  rw [View.read_writes_eq_canon _ _ _ (cover_r1_C _ _ _ _ _ _ _ _ _ _ _ _ _ _ _ _ _ _ _ _ _ _ _ _ _ _ _)]
  unfold kernelRun_r1_C
  dsimp only
  sl_unfold_words
  rw [View.canon_unit_zero hz_r1]
  simp only [View.readCov_unit_zero (S := S512x512) _ hz_r1, View.readAt_eq_ld, (hs_r1_0 t).read_unread, (hs_r1_1 t).read_unread, (hs_r1_2 t).read_unread,
    (hs_r1_3 t).read_unread, (hs_r1_4 t).read_unread, (hs_r1_5 t).read_unread,
    (Memref.isWhole_whole cc1_scratch0).read_unread, View.ld_unit_zero (S := S512x1024) hz_r1, View.ld_unit_zero (S := S512x512) hz_r1,
    View.ld_unit_zero (S := S1x512) hz_r1]

end Cert.KernelIdeal.Hand

end
-- ==== Proof.KernelIdeal.R1.PayIdx.lean ====
import proofs.«128115_j49460843381367_1_alg».proof.Proof.KernelIdeal.Matmul
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx
open Cert.KernelIdeal Cert.KernelIdeal.Gen

theorem pay1_r1_apply (j : S512x512.Idx) : (k1_pay1 (F := Ideal)) j = 0 := by
  unfold k1_pay1
  refine (congrFun (shapeCast_self _ _) j).trans ?_
  exact Ideal.ofBits_zero_f32

theorem pay2_r1_apply (x0 x1 x2 : Vec Ideal S512x1024 .f32) (acc : Vec Ideal S512x512 .f32) (p q : Fin 512) :
    k1_pay2 (F := Ideal) x0 x1 x2 acc (ix2 p q)
      = acc (ix2 p q) + ∑ r : Fin 1024, x0 (ix2 p r) * (x1 (ix2 q r) * x2 (ix2 q r)) := by
  unfold k1_pay2
  refine (congrFun (shapeCast_self _ _) (ix2 p q)).trans ?_
  refine congrArg (acc (ix2 p q) + ·) ?_
  refine (matmul_apply _ _ p q).trans ?_
  refine Finset.sum_congr rfl fun r _ => ?_
  simp only [shapeCast_self]
  rfl

theorem pay3_r1_apply (mu sg : Vec Ideal S1x512 .f32) (z acc : Vec Ideal S512x512 .f32) (p q : Fin 512) :
    k1_pay3 (F := Ideal) mu sg z acc (ix2 p q)
      = max (acc (ix2 p q) + Ideal.exp (mu (ix2 (0 : Fin 1) q) + sg (ix2 (0 : Fin 1) q) * z (ix2 p q))) 0 := by
  unfold k1_pay3
  show max (acc (ix2 p q) + Ideal.exp (broadcastTo S512x512 (shapeCast S1x512 mu _) _ (ix2 p q)
      + broadcastTo S512x512 (shapeCast S1x512 sg _) _ (ix2 p q) * shapeCast S512x512 z _ (ix2 p q))) (Ideal.ofBits .f32 0x00000000#32) = _
  rw [shapeCast_self, shapeCast_self, shapeCast_self, broadcastTo_1b_ab_apply, broadcastTo_1b_ab_apply,
    Ideal.ofBits_zero_f32]

end Cert.KernelIdeal.Hand

end
-- ==== Proof.KernelIdeal.R1.Value.lean ====
import proofs.«128115_j49460843381367_1_alg».proof.Proof.KernelIdeal.R1.Pieces
import proofs.«128115_j49460843381367_1_alg».proof.Proof.KernelIdeal.R1.PayIdx
import proofs.«128115_j49460843381367_1_alg».proof.Proof.Layer
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem idx_facts_r1 : ∀ t : Fin cfg1.N,
    win1_0.index t (0 : Fin 2) = t.val / 32 ∧ win1_0.index t (1 : Fin 2) = t.val % 4
    ∧ win1_1.index t (0 : Fin 2) = t.val / 4 % 8 ∧ win1_1.index t (1 : Fin 2) = t.val % 4
    ∧ win1_2.index t (0 : Fin 2) = t.val / 4 % 8 ∧ win1_2.index t (1 : Fin 2) = t.val % 4
    ∧ win1_3.index t (0 : Fin 2) = 0 ∧ win1_3.index t (1 : Fin 2) = t.val / 4 % 8
    ∧ win1_4.index t (0 : Fin 2) = 0 ∧ win1_4.index t (1 : Fin 2) = t.val / 4 % 8
    ∧ win1_5.index t (0 : Fin 2) = t.val / 32 ∧ win1_5.index t (1 : Fin 2) = t.val / 4 % 8
    ∧ win1_6.index t (0 : Fin 2) = t.val / 32 ∧ win1_6.index t (1 : Fin 2) = t.val / 4 % 8 :=
  (by decide +kernel : ∀ t : Fin grid1.N, _)

abbrev xarr_r1 (c : Dev nD) : Cert.Layer.SBH.Idx → EReal := V c (Pipeline.arrRef spec1 0)
abbrev warr_r1 (c : Dev nD) : Cert.Layer.SBH.Idx → EReal := V c (Pipeline.arrRef spec1 1)
abbrev marr_r1 (c : Dev nD) : Cert.Layer.SBH.Idx → EReal := V c (Pipeline.arrRef spec1 2)
abbrev muarr_r1 (c : Dev nD) : Cert.Layer.SRow.Idx → EReal := V c (Pipeline.arrRef spec1 3)
abbrev sgarr_r1 (c : Dev nD) : Cert.Layer.SRow.Idx → EReal := V c (Pipeline.arrRef spec1 4)
abbrev zarr_r1 (c : Dev nD) : Cert.Layer.SBH.Idx → EReal := V c (Pipeline.arrRef spec1 5)

abbrev xblk_r1 (c : Dev nD) (t : Fin cfg1.N) : Vec Ideal S512x1024 .f32 := iblk_r1 V c 0 t
abbrev wblk_r1 (c : Dev nD) (t : Fin cfg1.N) : Vec Ideal S512x1024 .f32 := iblk_r1 V c 1 t
abbrev mblk_r1 (c : Dev nD) (t : Fin cfg1.N) : Vec Ideal S512x1024 .f32 := iblk_r1 V c 2 t
abbrev mublk_r1 (c : Dev nD) (t : Fin cfg1.N) : Vec Ideal S1x512 .f32 := iblk_r1 V c 3 t
abbrev sgblk_r1 (c : Dev nD) (t : Fin cfg1.N) : Vec Ideal S1x512 .f32 := iblk_r1 V c 4 t
abbrev zblk_r1 (c : Dev nD) (t : Fin cfg1.N) : Vec Ideal S512x512 .f32 := iblk_r1 V c 5 t

theorem xblk_r1_apply (c : Dev nD) (t : Fin cfg1.N) (p : Fin 512) (r : Fin 1024) (a i : Fin 4096)
    (ha : a.val = 512 * (t.val / 32) + p.val) (hi : i.val = 1024 * (t.val % 4) + r.val) :
    xblk_r1 V c t (ix2 p r) = xarr_r1 V c (ix2 a i) := by
  obtain ⟨e0, e1, -⟩ := idx_facts_r1 t
  show xarr_r1 V c (((cfg1.win 0).blk t).view.emb (ix2 p r)) = _
  refine congrArg _ (funext fun ax => Fin.ext ?_)
  match ax with
  | ⟨0, _⟩ => show win1_0.index t (0 : Fin 2) * 512 + 1 * p.val = a.val; omega
  | ⟨1, _⟩ => show win1_0.index t (1 : Fin 2) * 1024 + 1 * r.val = i.val; omega

theorem wblk_r1_apply (c : Dev nD) (t : Fin cfg1.N) (q : Fin 512) (r : Fin 1024) (b i : Fin 4096)
    (hb : b.val = 512 * (t.val / 4 % 8) + q.val) (hi : i.val = 1024 * (t.val % 4) + r.val) :
    wblk_r1 V c t (ix2 q r) = warr_r1 V c (ix2 b i) := by
  obtain ⟨-, -, e0, e1, -⟩ := idx_facts_r1 t
  show warr_r1 V c (((cfg1.win 1).blk t).view.emb (ix2 q r)) = _
  refine congrArg _ (funext fun ax => Fin.ext ?_)
  match ax with
  | ⟨0, _⟩ => show win1_1.index t (0 : Fin 2) * 512 + 1 * q.val = b.val; omega
  | ⟨1, _⟩ => show win1_1.index t (1 : Fin 2) * 1024 + 1 * r.val = i.val; omega

theorem mblk_r1_apply (c : Dev nD) (t : Fin cfg1.N) (q : Fin 512) (r : Fin 1024) (b i : Fin 4096)
    (hb : b.val = 512 * (t.val / 4 % 8) + q.val) (hi : i.val = 1024 * (t.val % 4) + r.val) :
    mblk_r1 V c t (ix2 q r) = marr_r1 V c (ix2 b i) := by
  obtain ⟨-, -, -, -, e0, e1, -⟩ := idx_facts_r1 t
  show marr_r1 V c (((cfg1.win 2).blk t).view.emb (ix2 q r)) = _
  refine congrArg _ (funext fun ax => Fin.ext ?_)
  match ax with
  | ⟨0, _⟩ => show win1_2.index t (0 : Fin 2) * 512 + 1 * q.val = b.val; omega
  | ⟨1, _⟩ => show win1_2.index t (1 : Fin 2) * 1024 + 1 * r.val = i.val; omega

theorem mublk_r1_apply (c : Dev nD) (t : Fin cfg1.N) (q : Fin 512) (b : Fin 4096)
    (hb : b.val = 512 * (t.val / 4 % 8) + q.val) :
    mublk_r1 V c t (ix2 (0 : Fin 1) q) = muarr_r1 V c (ix2 (0 : Fin 1) b) := by
  obtain ⟨-, -, -, -, -, -, e0, e1, -⟩ := idx_facts_r1 t
  show muarr_r1 V c (((cfg1.win 3).blk t).view.emb (ix2 (0 : Fin 1) q)) = _
  refine congrArg _ (funext fun ax => Fin.ext ?_)
  match ax with
  | ⟨0, _⟩ => show win1_3.index t (0 : Fin 2) * 1 + 1 * (0 : Fin 1).val = (0 : Fin 1).val; omega
  | ⟨1, _⟩ => show win1_3.index t (1 : Fin 2) * 512 + 1 * q.val = b.val; omega

theorem sgblk_r1_apply (c : Dev nD) (t : Fin cfg1.N) (q : Fin 512) (b : Fin 4096)
    (hb : b.val = 512 * (t.val / 4 % 8) + q.val) :
    sgblk_r1 V c t (ix2 (0 : Fin 1) q) = sgarr_r1 V c (ix2 (0 : Fin 1) b) := by
  obtain ⟨-, -, -, -, -, -, -, -, e0, e1, -⟩ := idx_facts_r1 t
  show sgarr_r1 V c (((cfg1.win 4).blk t).view.emb (ix2 (0 : Fin 1) q)) = _
  refine congrArg _ (funext fun ax => Fin.ext ?_)
  match ax with
  | ⟨0, _⟩ => show win1_4.index t (0 : Fin 2) * 1 + 1 * (0 : Fin 1).val = (0 : Fin 1).val; omega
  | ⟨1, _⟩ => show win1_4.index t (1 : Fin 2) * 512 + 1 * q.val = b.val; omega

theorem zblk_r1_apply (c : Dev nD) (t : Fin cfg1.N) (p q : Fin 512) (a b : Fin 4096)
    (ha : a.val = 512 * (t.val / 32) + p.val) (hb : b.val = 512 * (t.val / 4 % 8) + q.val) :
    zblk_r1 V c t (ix2 p q) = zarr_r1 V c (ix2 a b) := by
  obtain ⟨-, -, -, -, -, -, -, -, -, -, e0, e1, -⟩ := idx_facts_r1 t
  show zarr_r1 V c (((cfg1.win 5).blk t).view.emb (ix2 p q)) = _
  refine congrArg _ (funext fun ax => Fin.ext ?_)
  match ax with
  | ⟨0, _⟩ => show win1_5.index t (0 : Fin 2) * 512 + 1 * p.val = a.val; omega
  | ⟨1, _⟩ => show win1_5.index t (1 : Fin 2) * 512 + 1 * q.val = b.val; omega

abbrev term_r1 (c : Dev nD) (a b : Fin 4096) : Fin 4096 → EReal :=
  fun i => xarr_r1 V c (ix2 a i) * (warr_r1 V c (ix2 b i) * marr_r1 V c (ix2 b i))

theorem slab_r1_eq (c : Dev nD) (t : Fin cfg1.N) (acc : Vec Ideal S512x512 .f32) (p q : Fin 512) (a b : Fin 4096)
    (ha : a.val = 512 * (t.val / 32) + p.val) (hb : b.val = 512 * (t.val / 4 % 8) + q.val) :
    k1_pay2 (F := Ideal) (iblk_r1 V c 0 t) (iblk_r1 V c 1 t) (iblk_r1 V c 2 t) acc (ix2 p q)
      = acc (ix2 p q) + ∑ r : Fin 1024, term_r1 V c a b (Cert.Layer.slabIx ⟨t.val % 4, Nat.mod_lt _ (by decide)⟩ r) := by
  refine (pay2_r1_apply (xblk_r1 V c t) (wblk_r1 V c t) (mblk_r1 V c t) acc p q).trans ?_
  refine congrArg (acc (ix2 p q) + ·) (Finset.sum_congr rfl fun r _ => ?_)
  rw [xblk_r1_apply V c t p r a (Cert.Layer.slabIx ⟨t.val % 4, Nat.mod_lt _ (by decide)⟩ r) ha rfl,
    wblk_r1_apply V c t q r b (Cert.Layer.slabIx ⟨t.val % 4, Nat.mod_lt _ (by decide)⟩ r) hb rfl,
    mblk_r1_apply V c t q r b (Cert.Layer.slabIx ⟨t.val % 4, Nat.mod_lt _ (by decide)⟩ r) hb rfl]

theorem accAt_r1_A (c : Dev nD) (t : Fin cfg1.N) (h0 : t.val % 4 = 0) (h1 : ¬t.val % 4 = 3) :
    (outsAt_r1 V c t.val t.isLt).2 = soutA_at_r1 V c t h0 h1 := by
  rw [outsAt_r1_A V c t h0 h1]

theorem accAt_r1_B (c : Dev nD) (t : Fin cfg1.N) (h0 : ¬t.val % 4 = 0) (h1 : ¬t.val % 4 = 3) :
    (outsAt_r1 V c t.val t.isLt).2
      = soutB_at_r1 V c t h0 h1 (outsAt_r1 V c (t.val - 1) (Nat.lt_of_le_of_lt (Nat.sub_le _ _) t.isLt)).2 := by
  rw [outsAt_r1_B V c t h0 h1]

theorem accAt_r1_C (c : Dev nD) (t : Fin cfg1.N) (h0 : ¬t.val % 4 = 0) (h1 : t.val % 4 = 3) :
    (outsAt_r1 V c t.val t.isLt).2
      = soutC_at_r1 V c t h0 h1 (outsAt_r1 V c (t.val - 1) (Nat.lt_of_le_of_lt (Nat.sub_le _ _) t.isLt)).2 := by
  rw [outsAt_r1_C V c t h0 h1]

theorem outAt_r1_C (c : Dev nD) (t : Fin cfg1.N) (h0 : ¬t.val % 4 = 0) (h1 : t.val % 4 = 3) :
    (outsAt_r1 V c t.val t.isLt).1
      = outC_at_r1 V c t h0 h1 (outsAt_r1 V c (t.val - 1) (Nat.lt_of_le_of_lt (Nat.sub_le _ _) t.isLt)).2 := by
  rw [outsAt_r1_C V c t h0 h1]

theorem acc_r1_first (c : Dev nD) (t : Fin cfg1.N) (h0 : t.val % 4 = 0) (p q : Fin 512) (a b : Fin 4096)
    (ha : a.val = 512 * (t.val / 32) + p.val) (hb : b.val = 512 * (t.val / 4 % 8) + q.val) :
    (outsAt_r1 V c t.val t.isLt).2 (ix2 p q) = Cert.Layer.partialDot (term_r1 V c a b) (t.val % 4 + 1) := by
  have h1 : ¬t.val % 4 = 3 := by omega
  rw [accAt_r1_A V c t h0 h1, soutA_at_r1_eq]
  refine (slab_r1_eq V c t _ p q a b ha hb).trans ?_
  rw [pay1_r1_apply, Cert.Layer.partialDot_succ _ _ (Nat.mod_lt _ (by decide))]
  refine congrArg (· + _) ?_
  rw [h0]
  rfl

theorem acc_r1_later (c : Dev nD) (t : Fin cfg1.N) (h0 : ¬t.val % 4 = 0) (p q : Fin 512) (a b : Fin 4096)
    (ha : a.val = 512 * (t.val / 32) + p.val) (hb : b.val = 512 * (t.val / 4 % 8) + q.val)
    (ih : (outsAt_r1 V c (t.val - 1) (Nat.lt_of_le_of_lt (Nat.sub_le _ _) t.isLt)).2 (ix2 p q)
      = Cert.Layer.partialDot (term_r1 V c a b) (t.val % 4)) :
    (outsAt_r1 V c t.val t.isLt).2 (ix2 p q) = Cert.Layer.partialDot (term_r1 V c a b) (t.val % 4 + 1) := by
  rw [Cert.Layer.partialDot_succ _ _ (Nat.mod_lt _ (by decide)), ← ih]
  by_cases h1 : t.val % 4 = 3
  · rw [accAt_r1_C V c t h0 h1, soutC_at_r1_eq]
    exact slab_r1_eq V c t _ p q a b ha hb
  · rw [accAt_r1_B V c t h0 h1, soutB_at_r1_eq]
    exact slab_r1_eq V c t _ p q a b ha hb

-- By induction on the point: inside a group of four points the accumulator is the sum of the slabs seen so far.
theorem acc_r1_eq (c : Dev nD) (n : ℕ) : ∀ (hn : n < cfg1.N) (p q : Fin 512) (a b : Fin 4096),
    a.val = 512 * (n / 32) + p.val → b.val = 512 * (n / 4 % 8) + q.val →
    (outsAt_r1 V c n hn).2 (ix2 p q) = Cert.Layer.partialDot (term_r1 V c a b) (n % 4 + 1) := by
  induction n using Nat.strong_induction_on with
  | _ n ih =>
    intro hn p q a b ha hb
    by_cases h0 : n % 4 = 0
    · exact acc_r1_first V c ⟨n, hn⟩ h0 p q a b ha hb
    · refine acc_r1_later V c ⟨n, hn⟩ h0 p q a b ha hb ?_
      have hprev := ih (n - 1) (by omega) (Nat.lt_of_le_of_lt (Nat.sub_le _ _) hn) p q a b (by omega) (by omega)
      rw [show (n - 1) % 4 + 1 = n % 4 by omega] at hprev
      exact hprev

abbrev layer_r1 (c : Dev nD) : Cert.Layer.SBH.Idx → EReal :=
  Cert.Layer.layer (xarr_r1 V c) (warr_r1 V c) (marr_r1 V c) (muarr_r1 V c) (sgarr_r1 V c) (zarr_r1 V c)

theorem out_r1_eq (c : Dev nD) (t : Fin cfg1.N) (h1 : t.val % 4 = 3) (p q : Fin 512) (a b : Fin 4096)
    (ha : a.val = 512 * (t.val / 32) + p.val) (hb : b.val = 512 * (t.val / 4 % 8) + q.val) :
    (outsAt_r1 V c t.val t.isLt).1 (ix2 p q) = layer_r1 V c (ix2 a b) := by
  have h0 : ¬t.val % 4 = 0 := by omega
  have hacc := acc_r1_eq V c t.val t.isLt p q a b ha hb
  rw [accAt_r1_C V c t h0 h1, soutC_at_r1_eq, show t.val % 4 + 1 = 4 by omega, Cert.Layer.partialDot_four] at hacc
  rw [outAt_r1_C V c t h0 h1, outC_at_r1_eq]
  refine (pay3_r1_apply (mublk_r1 V c t) (sgblk_r1 V c t) (zblk_r1 V c t) _ p q).trans ?_
  rw [hacc, mublk_r1_apply V c t q b hb, sgblk_r1_apply V c t q b hb, zblk_r1_apply V c t p q a b ha hb]
  rfl

theorem flushed_r1_eq (c : Dev nD) (t : Fin cfg1.N) (hf : (cfg1.win 6).flush t = true) :
    (dat_r1 V c).flushed 6 t = ((cfg1.win 6).blk t).view.read (Elt Ideal) (layer_r1 V c) := by
  have h1 : t.val % 4 = 3 := (flush1_6 t).mp hf
  have hN : cfg1.N = 256 := N_1
  have ht : t.val < cfg1.N := t.isLt
  obtain ⟨-, -, -, -, -, -, -, -, -, -, -, -, e0, e1⟩ := idx_facts_r1 t
  show (cfg1.win 6).cut (grid1.coords t) ((dat_r1 V c).after 6 t) = _
  rw [after_r1_6]
  funext j
  obtain ⟨p, q, rfl⟩ : ∃ (p : Fin 512) (q : Fin 512), j = ix2 p q := ⟨j 0, j 1, eq_ix2 j⟩
  have hemb : ((cfg1.win 6).blk t).view.emb (ix2 p q)
      = ix2 (⟨512 * (t.val / 32) + p.val, by omega⟩ : Fin 4096) (⟨512 * (t.val / 4 % 8) + q.val, by omega⟩ : Fin 4096) := by
    refine funext fun ax => Fin.ext ?_
    match ax with
    | ⟨0, _⟩ => show win1_6.index t (0 : Fin 2) * 512 + 1 * p.val = 512 * (t.val / 32) + p.val; omega
    | ⟨1, _⟩ => show win1_6.index t (1 : Fin 2) * 512 + 1 * q.val = 512 * (t.val / 4 % 8) + q.val; omega
  show (outsAt_r1 V c t.val t.isLt).1 (ix2 p q) = layer_r1 V c (((cfg1.win 6).blk t).view.emb (ix2 p q))
  rw [hemb]
  exact out_r1_eq V c t h1 p q _ _ rfl rfl

theorem mem_blk_r1 (t : Fin cfg1.N) (i : Cert.Layer.SBH.Idx) :
    i ∈ ((cfg1.win 6).blk t).view.set
      ↔ ∀ a : Fin 2, win1_6.index t a * S512x512.size a ≤ (i a).val ∧ (i a).val < win1_6.index t a * S512x512.size a + S512x512.size a := by
  show i ∈ ((View.whole (Pipeline.arrRef spec1 6)).slice (win1_6.rect t)).set ↔ _
  rw [View.set_slice_whole, Rect.mem_set_unit]
  exact Iff.rfl

theorem cover_r1 (i : Cert.Layer.SBH.Idx) :
    ∃ t : Fin cfg1.N, (cfg1.win 6).flush t = true ∧ i ∈ ((cfg1.win 6).blk t).view.set := by
  have hN : cfg1.N = 256 := N_1
  have hi0 : (i 0).val < 4096 := (i 0).isLt
  have hi1 : (i 1).val < 4096 := (i 1).isLt
  obtain ⟨t, ht⟩ : ∃ t : Fin cfg1.N, t.val = ((i 0).val / 512 * 8 + (i 1).val / 512) * 4 + 3 := ⟨⟨_, by omega⟩, rfl⟩
  obtain ⟨-, -, -, -, -, -, -, -, -, -, -, -, e0, e1⟩ := idx_facts_r1 t
  refine ⟨t, (flush1_6 t).mpr (by omega), ?_⟩
  rw [mem_blk_r1]
  intro a
  match a with
  | ⟨0, _⟩ => show win1_6.index t (0 : Fin 2) * 512 ≤ (i 0).val ∧ (i 0).val < win1_6.index t (0 : Fin 2) * 512 + 512; omega
  | ⟨1, _⟩ => show win1_6.index t (1 : Fin 2) * 512 ≤ (i 1).val ∧ (i 1).val < win1_6.index t (1 : Fin 2) * 512 + 512; omega

-- Each output entry lies in the block of exactly one last-slab point, which stores the layer's value there.
theorem arr_final_r1 (c : Dev nD) (x w mk : Cert.Layer.SBH.Idx → EReal) (mu sg : Cert.Layer.SRow.Idx → EReal) (z : Cert.Layer.SBH.Idx → EReal)
    (hx : V c (Pipeline.arrRef spec1 0) = x) (hw : V c (Pipeline.arrRef spec1 1) = w) (hmk : V c (Pipeline.arrRef spec1 2) = mk)
    (hmu : V c (Pipeline.arrRef spec1 3) = mu) (hsg : V c (Pipeline.arrRef spec1 4) = sg) (hz : V c (Pipeline.arrRef spec1 5) = z) :
    (dat_r1 (F := Ideal) V c).arrAt 6 cfg1.N = Cert.Layer.layer x w mk mu sg z := by
  subst hx hw hmk hmu hsg hz
  exact (dat_r1 V c).arrAt_eq_of_cover 6 (layer_r1 V c) (fun t hf => flushed_r1_eq V c t hf) (fun i => cover_r1 i)

end Cert.KernelIdeal.Hand

end
-- ==== Proof.KernelIdeal.R2.Pieces.lean ====
import proofs.«128115_j49460843381367_1_alg».proof.Proof.KernelIdeal.R2.Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz_r2 : (![0, 0] : Fin 2 → Nat) = fun _ => 0 := funext fun a => by fin_cases a <;> rfl

theorem soutA_at_r2_eq (c : Dev nD) (t : Fin cfg2.N) (h0 : t.val % 4 = 0) (h1 : ¬t.val % 4 = 3) :
    soutA_at_r2 V c t h0 h1 = k2_pay2 (iblk_r2 V c 0 t) (iblk_r2 V c 1 t) (iblk_r2 V c 2 t) (k2_pay1 (F := F)) := by
  unfold soutA_at_r2 sout_r2_A
  rw [View.read_writes_eq_canon _ _ _ (scover_r2_A _ _ _ _ _ _ _ _ _ _ _ _ _ _ _ _ _ _ _ _ _ _ _)]
  unfold kernelRun_r2_A
  dsimp only
  sl_unfold_words
  rw [View.canon_cons_unit_zero (S := S512x512) hz_r2, View.readCov_unit_zero (S := S512x512) _ hz_r2]
  simp only [View.readAt_eq_ld, (hs_r2_0 t).read_unread, (hs_r2_1 t).read_unread, (hs_r2_2 t).read_unread,
    View.ld_unit_zero (S := S512x1024) hz_r2]

theorem soutB_at_r2_eq (c : Dev nD) (t : Fin cfg2.N) (h0 : ¬t.val % 4 = 0) (h1 : ¬t.val % 4 = 3) (xs0 : Vec F S512x512 .f32) :
    soutB_at_r2 V c t h0 h1 xs0 = k2_pay2 (iblk_r2 V c 0 t) (iblk_r2 V c 1 t) (iblk_r2 V c 2 t) xs0 := by
  unfold soutB_at_r2 sout_r2_B
  rw [View.read_writes_eq_canon _ _ _ (scover_r2_B _ _ _ _ _ _ _ _ _ _ _ _ _ _ _ _ _ _ _ _ _ _ _ _)]
  unfold kernelRun_r2_B
  dsimp only
  sl_unfold_words
  rw [View.canon_unit_zero hz_r2]
  simp only [View.readAt_eq_ld, (hs_r2_0 t).read_unread, (hs_r2_1 t).read_unread, (hs_r2_2 t).read_unread,
    (Memref.isWhole_whole cc2_scratch0).read_unread, View.ld_unit_zero (S := S512x1024) hz_r2, View.ld_unit_zero (S := S512x512) hz_r2]

theorem soutC_at_r2_eq (c : Dev nD) (t : Fin cfg2.N) (h0 : ¬t.val % 4 = 0) (h1 : t.val % 4 = 3) (xs0 : Vec F S512x512 .f32) :
    soutC_at_r2 V c t h0 h1 xs0 = k2_pay2 (iblk_r2 V c 0 t) (iblk_r2 V c 1 t) (iblk_r2 V c 2 t) xs0 := by
  unfold soutC_at_r2 sout_r2_C
  rw [View.read_writes_eq_canon _ _ _ (scover_r2_C _ _ _ _ _ _ _ _ _ _ _ _ _ _ _ _ _ _ _ _ _ _ _ _ _ _ _)]
  unfold kernelRun_r2_C
  dsimp only
  sl_unfold_words
  rw [View.canon_unit_zero hz_r2]
  simp only [View.readAt_eq_ld, (hs_r2_0 t).read_unread, (hs_r2_1 t).read_unread, (hs_r2_2 t).read_unread,
    (Memref.isWhole_whole cc2_scratch0).read_unread, View.ld_unit_zero (S := S512x1024) hz_r2, View.ld_unit_zero (S := S512x512) hz_r2]

theorem outC_at_r2_eq (c : Dev nD) (t : Fin cfg2.N) (h0 : ¬t.val % 4 = 0) (h1 : t.val % 4 = 3) (xs0 : Vec F S512x512 .f32) :
    outC_at_r2 V c t h0 h1 xs0 = k2_pay3 (iblk_r2 V c 3 t) (iblk_r2 V c 4 t) (iblk_r2 V c 5 t)
      (k2_pay2 (iblk_r2 V c 0 t) (iblk_r2 V c 1 t) (iblk_r2 V c 2 t) xs0) := by
  unfold outC_at_r2 out_r2_C
  rw [View.read_writes_eq_canon _ _ _ (cover_r2_C _ _ _ _ _ _ _ _ _ _ _ _ _ _ _ _ _ _ _ _ _ _ _ _ _ _ _)]
  unfold kernelRun_r2_C
  dsimp only
  sl_unfold_words
  rw [View.canon_unit_zero hz_r2]
  simp only [View.readCov_unit_zero (S := S512x512) _ hz_r2, View.readAt_eq_ld, (hs_r2_0 t).read_unread, (hs_r2_1 t).read_unread, (hs_r2_2 t).read_unread,
    (hs_r2_3 t).read_unread, (hs_r2_4 t).read_unread, (hs_r2_5 t).read_unread,
    (Memref.isWhole_whole cc2_scratch0).read_unread, View.ld_unit_zero (S := S512x1024) hz_r2, View.ld_unit_zero (S := S512x512) hz_r2,
    View.ld_unit_zero (S := S1x512) hz_r2]

end Cert.KernelIdeal.Hand

end
-- ==== Proof.KernelIdeal.R2.PayIdx.lean ====
import proofs.«128115_j49460843381367_1_alg».proof.Proof.KernelIdeal.Matmul
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx
open Cert.KernelIdeal Cert.KernelIdeal.Gen

theorem pay1_r2_apply (j : S512x512.Idx) : (k2_pay1 (F := Ideal)) j = 0 := by
  unfold k2_pay1
  refine (congrFun (shapeCast_self _ _) j).trans ?_
  exact Ideal.ofBits_zero_f32

theorem pay2_r2_apply (x0 x1 x2 : Vec Ideal S512x1024 .f32) (acc : Vec Ideal S512x512 .f32) (p q : Fin 512) :
    k2_pay2 (F := Ideal) x0 x1 x2 acc (ix2 p q)
      = acc (ix2 p q) + ∑ r : Fin 1024, x0 (ix2 p r) * (x1 (ix2 q r) * x2 (ix2 q r)) := by
  unfold k2_pay2
  refine (congrFun (shapeCast_self _ _) (ix2 p q)).trans ?_
  refine congrArg (acc (ix2 p q) + ·) ?_
  refine (matmul_apply _ _ p q).trans ?_
  refine Finset.sum_congr rfl fun r _ => ?_
  simp only [shapeCast_self]
  rfl

theorem pay3_r2_apply (mu sg : Vec Ideal S1x512 .f32) (z acc : Vec Ideal S512x512 .f32) (p q : Fin 512) :
    k2_pay3 (F := Ideal) mu sg z acc (ix2 p q)
      = max (acc (ix2 p q) + Ideal.exp (mu (ix2 (0 : Fin 1) q) + sg (ix2 (0 : Fin 1) q) * z (ix2 p q))) 0 := by
  unfold k2_pay3
  show max (acc (ix2 p q) + Ideal.exp (broadcastTo S512x512 (shapeCast S1x512 mu _) _ (ix2 p q)
      + broadcastTo S512x512 (shapeCast S1x512 sg _) _ (ix2 p q) * shapeCast S512x512 z _ (ix2 p q))) (Ideal.ofBits .f32 0x00000000#32) = _
  rw [shapeCast_self, shapeCast_self, shapeCast_self, broadcastTo_1b_ab_apply, broadcastTo_1b_ab_apply,
    Ideal.ofBits_zero_f32]

end Cert.KernelIdeal.Hand

end
-- ==== Proof.KernelIdeal.R2.Value.lean ====
import proofs.«128115_j49460843381367_1_alg».proof.Proof.KernelIdeal.R2.Pieces
import proofs.«128115_j49460843381367_1_alg».proof.Proof.KernelIdeal.R2.PayIdx
import proofs.«128115_j49460843381367_1_alg».proof.Proof.Layer
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem idx_facts_r2 : ∀ t : Fin cfg2.N,
    win2_0.index t (0 : Fin 2) = t.val / 32 ∧ win2_0.index t (1 : Fin 2) = t.val % 4
    ∧ win2_1.index t (0 : Fin 2) = t.val / 4 % 8 ∧ win2_1.index t (1 : Fin 2) = t.val % 4
    ∧ win2_2.index t (0 : Fin 2) = t.val / 4 % 8 ∧ win2_2.index t (1 : Fin 2) = t.val % 4
    ∧ win2_3.index t (0 : Fin 2) = 0 ∧ win2_3.index t (1 : Fin 2) = t.val / 4 % 8
    ∧ win2_4.index t (0 : Fin 2) = 0 ∧ win2_4.index t (1 : Fin 2) = t.val / 4 % 8
    ∧ win2_5.index t (0 : Fin 2) = t.val / 32 ∧ win2_5.index t (1 : Fin 2) = t.val / 4 % 8
    ∧ win2_6.index t (0 : Fin 2) = t.val / 32 ∧ win2_6.index t (1 : Fin 2) = t.val / 4 % 8 :=
  (by decide +kernel : ∀ t : Fin grid2.N, _)

abbrev xarr_r2 (c : Dev nD) : Cert.Layer.SBH.Idx → EReal := V c (Pipeline.arrRef spec2 0)
abbrev warr_r2 (c : Dev nD) : Cert.Layer.SBH.Idx → EReal := V c (Pipeline.arrRef spec2 1)
abbrev marr_r2 (c : Dev nD) : Cert.Layer.SBH.Idx → EReal := V c (Pipeline.arrRef spec2 2)
abbrev muarr_r2 (c : Dev nD) : Cert.Layer.SRow.Idx → EReal := V c (Pipeline.arrRef spec2 3)
abbrev sgarr_r2 (c : Dev nD) : Cert.Layer.SRow.Idx → EReal := V c (Pipeline.arrRef spec2 4)
abbrev zarr_r2 (c : Dev nD) : Cert.Layer.SBH.Idx → EReal := V c (Pipeline.arrRef spec2 5)

abbrev xblk_r2 (c : Dev nD) (t : Fin cfg2.N) : Vec Ideal S512x1024 .f32 := iblk_r2 V c 0 t
abbrev wblk_r2 (c : Dev nD) (t : Fin cfg2.N) : Vec Ideal S512x1024 .f32 := iblk_r2 V c 1 t
abbrev mblk_r2 (c : Dev nD) (t : Fin cfg2.N) : Vec Ideal S512x1024 .f32 := iblk_r2 V c 2 t
abbrev mublk_r2 (c : Dev nD) (t : Fin cfg2.N) : Vec Ideal S1x512 .f32 := iblk_r2 V c 3 t
abbrev sgblk_r2 (c : Dev nD) (t : Fin cfg2.N) : Vec Ideal S1x512 .f32 := iblk_r2 V c 4 t
abbrev zblk_r2 (c : Dev nD) (t : Fin cfg2.N) : Vec Ideal S512x512 .f32 := iblk_r2 V c 5 t

theorem xblk_r2_apply (c : Dev nD) (t : Fin cfg2.N) (p : Fin 512) (r : Fin 1024) (a i : Fin 4096)
    (ha : a.val = 512 * (t.val / 32) + p.val) (hi : i.val = 1024 * (t.val % 4) + r.val) :
    xblk_r2 V c t (ix2 p r) = xarr_r2 V c (ix2 a i) := by
  obtain ⟨e0, e1, -⟩ := idx_facts_r2 t
  show xarr_r2 V c (((cfg2.win 0).blk t).view.emb (ix2 p r)) = _
  refine congrArg _ (funext fun ax => Fin.ext ?_)
  match ax with
  | ⟨0, _⟩ => show win2_0.index t (0 : Fin 2) * 512 + 1 * p.val = a.val; omega
  | ⟨1, _⟩ => show win2_0.index t (1 : Fin 2) * 1024 + 1 * r.val = i.val; omega

theorem wblk_r2_apply (c : Dev nD) (t : Fin cfg2.N) (q : Fin 512) (r : Fin 1024) (b i : Fin 4096)
    (hb : b.val = 512 * (t.val / 4 % 8) + q.val) (hi : i.val = 1024 * (t.val % 4) + r.val) :
    wblk_r2 V c t (ix2 q r) = warr_r2 V c (ix2 b i) := by
  obtain ⟨-, -, e0, e1, -⟩ := idx_facts_r2 t
  show warr_r2 V c (((cfg2.win 1).blk t).view.emb (ix2 q r)) = _
  refine congrArg _ (funext fun ax => Fin.ext ?_)
  match ax with
  | ⟨0, _⟩ => show win2_1.index t (0 : Fin 2) * 512 + 1 * q.val = b.val; omega
  | ⟨1, _⟩ => show win2_1.index t (1 : Fin 2) * 1024 + 1 * r.val = i.val; omega

theorem mblk_r2_apply (c : Dev nD) (t : Fin cfg2.N) (q : Fin 512) (r : Fin 1024) (b i : Fin 4096)
    (hb : b.val = 512 * (t.val / 4 % 8) + q.val) (hi : i.val = 1024 * (t.val % 4) + r.val) :
    mblk_r2 V c t (ix2 q r) = marr_r2 V c (ix2 b i) := by
  obtain ⟨-, -, -, -, e0, e1, -⟩ := idx_facts_r2 t
  show marr_r2 V c (((cfg2.win 2).blk t).view.emb (ix2 q r)) = _
  refine congrArg _ (funext fun ax => Fin.ext ?_)
  match ax with
  | ⟨0, _⟩ => show win2_2.index t (0 : Fin 2) * 512 + 1 * q.val = b.val; omega
  | ⟨1, _⟩ => show win2_2.index t (1 : Fin 2) * 1024 + 1 * r.val = i.val; omega

theorem mublk_r2_apply (c : Dev nD) (t : Fin cfg2.N) (q : Fin 512) (b : Fin 4096)
    (hb : b.val = 512 * (t.val / 4 % 8) + q.val) :
    mublk_r2 V c t (ix2 (0 : Fin 1) q) = muarr_r2 V c (ix2 (0 : Fin 1) b) := by
  obtain ⟨-, -, -, -, -, -, e0, e1, -⟩ := idx_facts_r2 t
  show muarr_r2 V c (((cfg2.win 3).blk t).view.emb (ix2 (0 : Fin 1) q)) = _
  refine congrArg _ (funext fun ax => Fin.ext ?_)
  match ax with
  | ⟨0, _⟩ => show win2_3.index t (0 : Fin 2) * 1 + 1 * (0 : Fin 1).val = (0 : Fin 1).val; omega
  | ⟨1, _⟩ => show win2_3.index t (1 : Fin 2) * 512 + 1 * q.val = b.val; omega

theorem sgblk_r2_apply (c : Dev nD) (t : Fin cfg2.N) (q : Fin 512) (b : Fin 4096)
    (hb : b.val = 512 * (t.val / 4 % 8) + q.val) :
    sgblk_r2 V c t (ix2 (0 : Fin 1) q) = sgarr_r2 V c (ix2 (0 : Fin 1) b) := by
  obtain ⟨-, -, -, -, -, -, -, -, e0, e1, -⟩ := idx_facts_r2 t
  show sgarr_r2 V c (((cfg2.win 4).blk t).view.emb (ix2 (0 : Fin 1) q)) = _
  refine congrArg _ (funext fun ax => Fin.ext ?_)
  match ax with
  | ⟨0, _⟩ => show win2_4.index t (0 : Fin 2) * 1 + 1 * (0 : Fin 1).val = (0 : Fin 1).val; omega
  | ⟨1, _⟩ => show win2_4.index t (1 : Fin 2) * 512 + 1 * q.val = b.val; omega

theorem zblk_r2_apply (c : Dev nD) (t : Fin cfg2.N) (p q : Fin 512) (a b : Fin 4096)
    (ha : a.val = 512 * (t.val / 32) + p.val) (hb : b.val = 512 * (t.val / 4 % 8) + q.val) :
    zblk_r2 V c t (ix2 p q) = zarr_r2 V c (ix2 a b) := by
  obtain ⟨-, -, -, -, -, -, -, -, -, -, e0, e1, -⟩ := idx_facts_r2 t
  show zarr_r2 V c (((cfg2.win 5).blk t).view.emb (ix2 p q)) = _
  refine congrArg _ (funext fun ax => Fin.ext ?_)
  match ax with
  | ⟨0, _⟩ => show win2_5.index t (0 : Fin 2) * 512 + 1 * p.val = a.val; omega
  | ⟨1, _⟩ => show win2_5.index t (1 : Fin 2) * 512 + 1 * q.val = b.val; omega

abbrev term_r2 (c : Dev nD) (a b : Fin 4096) : Fin 4096 → EReal :=
  fun i => xarr_r2 V c (ix2 a i) * (warr_r2 V c (ix2 b i) * marr_r2 V c (ix2 b i))

theorem slab_r2_eq (c : Dev nD) (t : Fin cfg2.N) (acc : Vec Ideal S512x512 .f32) (p q : Fin 512) (a b : Fin 4096)
    (ha : a.val = 512 * (t.val / 32) + p.val) (hb : b.val = 512 * (t.val / 4 % 8) + q.val) :
    k2_pay2 (F := Ideal) (iblk_r2 V c 0 t) (iblk_r2 V c 1 t) (iblk_r2 V c 2 t) acc (ix2 p q)
      = acc (ix2 p q) + ∑ r : Fin 1024, term_r2 V c a b (Cert.Layer.slabIx ⟨t.val % 4, Nat.mod_lt _ (by decide)⟩ r) := by
  refine (pay2_r2_apply (xblk_r2 V c t) (wblk_r2 V c t) (mblk_r2 V c t) acc p q).trans ?_
  refine congrArg (acc (ix2 p q) + ·) (Finset.sum_congr rfl fun r _ => ?_)
  rw [xblk_r2_apply V c t p r a (Cert.Layer.slabIx ⟨t.val % 4, Nat.mod_lt _ (by decide)⟩ r) ha rfl,
    wblk_r2_apply V c t q r b (Cert.Layer.slabIx ⟨t.val % 4, Nat.mod_lt _ (by decide)⟩ r) hb rfl,
    mblk_r2_apply V c t q r b (Cert.Layer.slabIx ⟨t.val % 4, Nat.mod_lt _ (by decide)⟩ r) hb rfl]

theorem accAt_r2_A (c : Dev nD) (t : Fin cfg2.N) (h0 : t.val % 4 = 0) (h1 : ¬t.val % 4 = 3) :
    (outsAt_r2 V c t.val t.isLt).2 = soutA_at_r2 V c t h0 h1 := by
  rw [outsAt_r2_A V c t h0 h1]

theorem accAt_r2_B (c : Dev nD) (t : Fin cfg2.N) (h0 : ¬t.val % 4 = 0) (h1 : ¬t.val % 4 = 3) :
    (outsAt_r2 V c t.val t.isLt).2
      = soutB_at_r2 V c t h0 h1 (outsAt_r2 V c (t.val - 1) (Nat.lt_of_le_of_lt (Nat.sub_le _ _) t.isLt)).2 := by
  rw [outsAt_r2_B V c t h0 h1]

theorem accAt_r2_C (c : Dev nD) (t : Fin cfg2.N) (h0 : ¬t.val % 4 = 0) (h1 : t.val % 4 = 3) :
    (outsAt_r2 V c t.val t.isLt).2
      = soutC_at_r2 V c t h0 h1 (outsAt_r2 V c (t.val - 1) (Nat.lt_of_le_of_lt (Nat.sub_le _ _) t.isLt)).2 := by
  rw [outsAt_r2_C V c t h0 h1]

theorem outAt_r2_C (c : Dev nD) (t : Fin cfg2.N) (h0 : ¬t.val % 4 = 0) (h1 : t.val % 4 = 3) :
    (outsAt_r2 V c t.val t.isLt).1
      = outC_at_r2 V c t h0 h1 (outsAt_r2 V c (t.val - 1) (Nat.lt_of_le_of_lt (Nat.sub_le _ _) t.isLt)).2 := by
  rw [outsAt_r2_C V c t h0 h1]

theorem acc_r2_first (c : Dev nD) (t : Fin cfg2.N) (h0 : t.val % 4 = 0) (p q : Fin 512) (a b : Fin 4096)
    (ha : a.val = 512 * (t.val / 32) + p.val) (hb : b.val = 512 * (t.val / 4 % 8) + q.val) :
    (outsAt_r2 V c t.val t.isLt).2 (ix2 p q) = Cert.Layer.partialDot (term_r2 V c a b) (t.val % 4 + 1) := by
  have h1 : ¬t.val % 4 = 3 := by omega
  rw [accAt_r2_A V c t h0 h1, soutA_at_r2_eq]
  refine (slab_r2_eq V c t _ p q a b ha hb).trans ?_
  rw [pay1_r2_apply, Cert.Layer.partialDot_succ _ _ (Nat.mod_lt _ (by decide))]
  refine congrArg (· + _) ?_
  rw [h0]
  rfl

theorem acc_r2_later (c : Dev nD) (t : Fin cfg2.N) (h0 : ¬t.val % 4 = 0) (p q : Fin 512) (a b : Fin 4096)
    (ha : a.val = 512 * (t.val / 32) + p.val) (hb : b.val = 512 * (t.val / 4 % 8) + q.val)
    (ih : (outsAt_r2 V c (t.val - 1) (Nat.lt_of_le_of_lt (Nat.sub_le _ _) t.isLt)).2 (ix2 p q)
      = Cert.Layer.partialDot (term_r2 V c a b) (t.val % 4)) :
    (outsAt_r2 V c t.val t.isLt).2 (ix2 p q) = Cert.Layer.partialDot (term_r2 V c a b) (t.val % 4 + 1) := by
  rw [Cert.Layer.partialDot_succ _ _ (Nat.mod_lt _ (by decide)), ← ih]
  by_cases h1 : t.val % 4 = 3
  · rw [accAt_r2_C V c t h0 h1, soutC_at_r2_eq]
    exact slab_r2_eq V c t _ p q a b ha hb
  · rw [accAt_r2_B V c t h0 h1, soutB_at_r2_eq]
    exact slab_r2_eq V c t _ p q a b ha hb

-- By induction on the point: inside a group of four points the accumulator is the sum of the slabs seen so far.
theorem acc_r2_eq (c : Dev nD) (n : ℕ) : ∀ (hn : n < cfg2.N) (p q : Fin 512) (a b : Fin 4096),
    a.val = 512 * (n / 32) + p.val → b.val = 512 * (n / 4 % 8) + q.val →
    (outsAt_r2 V c n hn).2 (ix2 p q) = Cert.Layer.partialDot (term_r2 V c a b) (n % 4 + 1) := by
  induction n using Nat.strong_induction_on with
  | _ n ih =>
    intro hn p q a b ha hb
    by_cases h0 : n % 4 = 0
    · exact acc_r2_first V c ⟨n, hn⟩ h0 p q a b ha hb
    · refine acc_r2_later V c ⟨n, hn⟩ h0 p q a b ha hb ?_
      have hprev := ih (n - 1) (by omega) (Nat.lt_of_le_of_lt (Nat.sub_le _ _) hn) p q a b (by omega) (by omega)
      rw [show (n - 1) % 4 + 1 = n % 4 by omega] at hprev
      exact hprev

abbrev layer_r2 (c : Dev nD) : Cert.Layer.SBH.Idx → EReal :=
  Cert.Layer.layer (xarr_r2 V c) (warr_r2 V c) (marr_r2 V c) (muarr_r2 V c) (sgarr_r2 V c) (zarr_r2 V c)

theorem out_r2_eq (c : Dev nD) (t : Fin cfg2.N) (h1 : t.val % 4 = 3) (p q : Fin 512) (a b : Fin 4096)
    (ha : a.val = 512 * (t.val / 32) + p.val) (hb : b.val = 512 * (t.val / 4 % 8) + q.val) :
    (outsAt_r2 V c t.val t.isLt).1 (ix2 p q) = layer_r2 V c (ix2 a b) := by
  have h0 : ¬t.val % 4 = 0 := by omega
  have hacc := acc_r2_eq V c t.val t.isLt p q a b ha hb
  rw [accAt_r2_C V c t h0 h1, soutC_at_r2_eq, show t.val % 4 + 1 = 4 by omega, Cert.Layer.partialDot_four] at hacc
  rw [outAt_r2_C V c t h0 h1, outC_at_r2_eq]
  refine (pay3_r2_apply (mublk_r2 V c t) (sgblk_r2 V c t) (zblk_r2 V c t) _ p q).trans ?_
  rw [hacc, mublk_r2_apply V c t q b hb, sgblk_r2_apply V c t q b hb, zblk_r2_apply V c t p q a b ha hb]
  rfl

theorem flushed_r2_eq (c : Dev nD) (t : Fin cfg2.N) (hf : (cfg2.win 6).flush t = true) :
    (dat_r2 V c).flushed 6 t = ((cfg2.win 6).blk t).view.read (Elt Ideal) (layer_r2 V c) := by
  have h1 : t.val % 4 = 3 := (flush2_6 t).mp hf
  have hN : cfg2.N = 256 := N_2
  have ht : t.val < cfg2.N := t.isLt
  obtain ⟨-, -, -, -, -, -, -, -, -, -, -, -, e0, e1⟩ := idx_facts_r2 t
  show (cfg2.win 6).cut (grid2.coords t) ((dat_r2 V c).after 6 t) = _
  rw [after_r2_6]
  funext j
  obtain ⟨p, q, rfl⟩ : ∃ (p : Fin 512) (q : Fin 512), j = ix2 p q := ⟨j 0, j 1, eq_ix2 j⟩
  have hemb : ((cfg2.win 6).blk t).view.emb (ix2 p q)
      = ix2 (⟨512 * (t.val / 32) + p.val, by omega⟩ : Fin 4096) (⟨512 * (t.val / 4 % 8) + q.val, by omega⟩ : Fin 4096) := by
    refine funext fun ax => Fin.ext ?_
    match ax with
    | ⟨0, _⟩ => show win2_6.index t (0 : Fin 2) * 512 + 1 * p.val = 512 * (t.val / 32) + p.val; omega
    | ⟨1, _⟩ => show win2_6.index t (1 : Fin 2) * 512 + 1 * q.val = 512 * (t.val / 4 % 8) + q.val; omega
  show (outsAt_r2 V c t.val t.isLt).1 (ix2 p q) = layer_r2 V c (((cfg2.win 6).blk t).view.emb (ix2 p q))
  rw [hemb]
  exact out_r2_eq V c t h1 p q _ _ rfl rfl

theorem mem_blk_r2 (t : Fin cfg2.N) (i : Cert.Layer.SBH.Idx) :
    i ∈ ((cfg2.win 6).blk t).view.set
      ↔ ∀ a : Fin 2, win2_6.index t a * S512x512.size a ≤ (i a).val ∧ (i a).val < win2_6.index t a * S512x512.size a + S512x512.size a := by
  show i ∈ ((View.whole (Pipeline.arrRef spec2 6)).slice (win2_6.rect t)).set ↔ _
  rw [View.set_slice_whole, Rect.mem_set_unit]
  exact Iff.rfl

theorem cover_r2 (i : Cert.Layer.SBH.Idx) :
    ∃ t : Fin cfg2.N, (cfg2.win 6).flush t = true ∧ i ∈ ((cfg2.win 6).blk t).view.set := by
  have hN : cfg2.N = 256 := N_2
  have hi0 : (i 0).val < 4096 := (i 0).isLt
  have hi1 : (i 1).val < 4096 := (i 1).isLt
  obtain ⟨t, ht⟩ : ∃ t : Fin cfg2.N, t.val = ((i 0).val / 512 * 8 + (i 1).val / 512) * 4 + 3 := ⟨⟨_, by omega⟩, rfl⟩
  obtain ⟨-, -, -, -, -, -, -, -, -, -, -, -, e0, e1⟩ := idx_facts_r2 t
  refine ⟨t, (flush2_6 t).mpr (by omega), ?_⟩
  rw [mem_blk_r2]
  intro a
  match a with
  | ⟨0, _⟩ => show win2_6.index t (0 : Fin 2) * 512 ≤ (i 0).val ∧ (i 0).val < win2_6.index t (0 : Fin 2) * 512 + 512; omega
  | ⟨1, _⟩ => show win2_6.index t (1 : Fin 2) * 512 ≤ (i 1).val ∧ (i 1).val < win2_6.index t (1 : Fin 2) * 512 + 512; omega

-- Each output entry lies in the block of exactly one last-slab point, which stores the layer's value there.
theorem arr_final_r2 (c : Dev nD) (x w mk : Cert.Layer.SBH.Idx → EReal) (mu sg : Cert.Layer.SRow.Idx → EReal) (z : Cert.Layer.SBH.Idx → EReal)
    (hx : V c (Pipeline.arrRef spec2 0) = x) (hw : V c (Pipeline.arrRef spec2 1) = w) (hmk : V c (Pipeline.arrRef spec2 2) = mk)
    (hmu : V c (Pipeline.arrRef spec2 3) = mu) (hsg : V c (Pipeline.arrRef spec2 4) = sg) (hz : V c (Pipeline.arrRef spec2 5) = z) :
    (dat_r2 (F := Ideal) V c).arrAt 6 cfg2.N = Cert.Layer.layer x w mk mu sg z := by
  subst hx hw hmk hmu hsg hz
  exact (dat_r2 V c).arrAt_eq_of_cover 6 (layer_r2 V c) (fun t hf => flushed_r2_eq V c t hf) (fun i => cover_r2 i)

end Cert.KernelIdeal.Hand

end
-- ==== Proof.KernelIdeal.R3.Pieces.lean ====
import proofs.«128115_j49460843381367_1_alg».proof.Proof.KernelIdeal.R3.Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz_r3 : (![0, 0] : Fin 2 → Nat) = fun _ => 0 := funext fun a => by fin_cases a <;> rfl

theorem soutA_at_r3_eq (c : Dev nD) (t : Fin cfg3.N) (h0 : t.val % 4 = 0) (h1 : ¬t.val % 4 = 3) :
    soutA_at_r3 V c t h0 h1 = k3_pay2 (iblk_r3 V c 0 t) (iblk_r3 V c 1 t) (iblk_r3 V c 2 t) (k3_pay1 (F := F)) := by
  unfold soutA_at_r3 sout_r3_A
  rw [View.read_writes_eq_canon _ _ _ (scover_r3_A _ _ _ _ _ _ _ _ _ _ _ _ _ _ _ _ _ _ _ _ _ _ _)]
  unfold kernelRun_r3_A
  dsimp only
  sl_unfold_words
  rw [View.canon_cons_unit_zero (S := S512x512) hz_r3, View.readCov_unit_zero (S := S512x512) _ hz_r3]
  simp only [View.readAt_eq_ld, (hs_r3_0 t).read_unread, (hs_r3_1 t).read_unread, (hs_r3_2 t).read_unread,
    View.ld_unit_zero (S := S512x1024) hz_r3]

theorem soutB_at_r3_eq (c : Dev nD) (t : Fin cfg3.N) (h0 : ¬t.val % 4 = 0) (h1 : ¬t.val % 4 = 3) (xs0 : Vec F S512x512 .f32) :
    soutB_at_r3 V c t h0 h1 xs0 = k3_pay2 (iblk_r3 V c 0 t) (iblk_r3 V c 1 t) (iblk_r3 V c 2 t) xs0 := by
  unfold soutB_at_r3 sout_r3_B
  rw [View.read_writes_eq_canon _ _ _ (scover_r3_B _ _ _ _ _ _ _ _ _ _ _ _ _ _ _ _ _ _ _ _ _ _ _ _)]
  unfold kernelRun_r3_B
  dsimp only
  sl_unfold_words
  rw [View.canon_unit_zero hz_r3]
  simp only [View.readAt_eq_ld, (hs_r3_0 t).read_unread, (hs_r3_1 t).read_unread, (hs_r3_2 t).read_unread,
    (Memref.isWhole_whole cc3_scratch0).read_unread, View.ld_unit_zero (S := S512x1024) hz_r3, View.ld_unit_zero (S := S512x512) hz_r3]

theorem soutC_at_r3_eq (c : Dev nD) (t : Fin cfg3.N) (h0 : ¬t.val % 4 = 0) (h1 : t.val % 4 = 3) (xs0 : Vec F S512x512 .f32) :
    soutC_at_r3 V c t h0 h1 xs0 = k3_pay2 (iblk_r3 V c 0 t) (iblk_r3 V c 1 t) (iblk_r3 V c 2 t) xs0 := by
  unfold soutC_at_r3 sout_r3_C
  rw [View.read_writes_eq_canon _ _ _ (scover_r3_C _ _ _ _ _ _ _ _ _ _ _ _ _ _ _ _ _ _ _ _ _ _ _ _ _ _ _)]
  unfold kernelRun_r3_C
  dsimp only
  sl_unfold_words
  rw [View.canon_unit_zero hz_r3]
  simp only [View.readAt_eq_ld, (hs_r3_0 t).read_unread, (hs_r3_1 t).read_unread, (hs_r3_2 t).read_unread,
    (Memref.isWhole_whole cc3_scratch0).read_unread, View.ld_unit_zero (S := S512x1024) hz_r3, View.ld_unit_zero (S := S512x512) hz_r3]

theorem outC_at_r3_eq (c : Dev nD) (t : Fin cfg3.N) (h0 : ¬t.val % 4 = 0) (h1 : t.val % 4 = 3) (xs0 : Vec F S512x512 .f32) :
    outC_at_r3 V c t h0 h1 xs0 = k3_pay3 (iblk_r3 V c 3 t) (iblk_r3 V c 4 t) (iblk_r3 V c 5 t)
      (k3_pay2 (iblk_r3 V c 0 t) (iblk_r3 V c 1 t) (iblk_r3 V c 2 t) xs0) := by
  unfold outC_at_r3 out_r3_C
  rw [View.read_writes_eq_canon _ _ _ (cover_r3_C _ _ _ _ _ _ _ _ _ _ _ _ _ _ _ _ _ _ _ _ _ _ _ _ _ _ _)]
  unfold kernelRun_r3_C
  dsimp only
  sl_unfold_words
  rw [View.canon_unit_zero hz_r3]
  simp only [View.readCov_unit_zero (S := S512x512) _ hz_r3, View.readAt_eq_ld, (hs_r3_0 t).read_unread, (hs_r3_1 t).read_unread, (hs_r3_2 t).read_unread,
    (hs_r3_3 t).read_unread, (hs_r3_4 t).read_unread, (hs_r3_5 t).read_unread,
    (Memref.isWhole_whole cc3_scratch0).read_unread, View.ld_unit_zero (S := S512x1024) hz_r3, View.ld_unit_zero (S := S512x512) hz_r3,
    View.ld_unit_zero (S := S1x512) hz_r3]

end Cert.KernelIdeal.Hand

end
-- ==== Proof.KernelIdeal.R3.PayIdx.lean ====
import proofs.«128115_j49460843381367_1_alg».proof.Proof.KernelIdeal.Matmul
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx
open Cert.KernelIdeal Cert.KernelIdeal.Gen

theorem pay1_r3_apply (j : S512x512.Idx) : (k3_pay1 (F := Ideal)) j = 0 := by
  unfold k3_pay1
  refine (congrFun (shapeCast_self _ _) j).trans ?_
  exact Ideal.ofBits_zero_f32

theorem pay2_r3_apply (x0 x1 x2 : Vec Ideal S512x1024 .f32) (acc : Vec Ideal S512x512 .f32) (p q : Fin 512) :
    k3_pay2 (F := Ideal) x0 x1 x2 acc (ix2 p q)
      = acc (ix2 p q) + ∑ r : Fin 1024, x0 (ix2 p r) * (x1 (ix2 q r) * x2 (ix2 q r)) := by
  unfold k3_pay2
  refine (congrFun (shapeCast_self _ _) (ix2 p q)).trans ?_
  refine congrArg (acc (ix2 p q) + ·) ?_
  refine (matmul_apply _ _ p q).trans ?_
  refine Finset.sum_congr rfl fun r _ => ?_
  simp only [shapeCast_self]
  rfl

theorem pay3_r3_apply (mu sg : Vec Ideal S1x512 .f32) (z acc : Vec Ideal S512x512 .f32) (p q : Fin 512) :
    k3_pay3 (F := Ideal) mu sg z acc (ix2 p q)
      = max (acc (ix2 p q) + Ideal.exp (mu (ix2 (0 : Fin 1) q) + sg (ix2 (0 : Fin 1) q) * z (ix2 p q))) 0 := by
  unfold k3_pay3
  show max (acc (ix2 p q) + Ideal.exp (broadcastTo S512x512 (shapeCast S1x512 mu _) _ (ix2 p q)
      + broadcastTo S512x512 (shapeCast S1x512 sg _) _ (ix2 p q) * shapeCast S512x512 z _ (ix2 p q))) (Ideal.ofBits .f32 0x00000000#32) = _
  rw [shapeCast_self, shapeCast_self, shapeCast_self, broadcastTo_1b_ab_apply, broadcastTo_1b_ab_apply,
    Ideal.ofBits_zero_f32]

end Cert.KernelIdeal.Hand

end
-- ==== Proof.KernelIdeal.R3.Value.lean ====
import proofs.«128115_j49460843381367_1_alg».proof.Proof.KernelIdeal.R3.Pieces
import proofs.«128115_j49460843381367_1_alg».proof.Proof.KernelIdeal.R3.PayIdx
import proofs.«128115_j49460843381367_1_alg».proof.Proof.Layer
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem idx_facts_r3 : ∀ t : Fin cfg3.N,
    win3_0.index t (0 : Fin 2) = t.val / 32 ∧ win3_0.index t (1 : Fin 2) = t.val % 4
    ∧ win3_1.index t (0 : Fin 2) = t.val / 4 % 8 ∧ win3_1.index t (1 : Fin 2) = t.val % 4
    ∧ win3_2.index t (0 : Fin 2) = t.val / 4 % 8 ∧ win3_2.index t (1 : Fin 2) = t.val % 4
    ∧ win3_3.index t (0 : Fin 2) = 0 ∧ win3_3.index t (1 : Fin 2) = t.val / 4 % 8
    ∧ win3_4.index t (0 : Fin 2) = 0 ∧ win3_4.index t (1 : Fin 2) = t.val / 4 % 8
    ∧ win3_5.index t (0 : Fin 2) = t.val / 32 ∧ win3_5.index t (1 : Fin 2) = t.val / 4 % 8
    ∧ win3_6.index t (0 : Fin 2) = t.val / 32 ∧ win3_6.index t (1 : Fin 2) = t.val / 4 % 8 :=
  (by decide +kernel : ∀ t : Fin grid3.N, _)

abbrev xarr_r3 (c : Dev nD) : Cert.Layer.SBH.Idx → EReal := V c (Pipeline.arrRef spec3 0)
abbrev warr_r3 (c : Dev nD) : Cert.Layer.SBH.Idx → EReal := V c (Pipeline.arrRef spec3 1)
abbrev marr_r3 (c : Dev nD) : Cert.Layer.SBH.Idx → EReal := V c (Pipeline.arrRef spec3 2)
abbrev muarr_r3 (c : Dev nD) : Cert.Layer.SRow.Idx → EReal := V c (Pipeline.arrRef spec3 3)
abbrev sgarr_r3 (c : Dev nD) : Cert.Layer.SRow.Idx → EReal := V c (Pipeline.arrRef spec3 4)
abbrev zarr_r3 (c : Dev nD) : Cert.Layer.SBH.Idx → EReal := V c (Pipeline.arrRef spec3 5)

abbrev xblk_r3 (c : Dev nD) (t : Fin cfg3.N) : Vec Ideal S512x1024 .f32 := iblk_r3 V c 0 t
abbrev wblk_r3 (c : Dev nD) (t : Fin cfg3.N) : Vec Ideal S512x1024 .f32 := iblk_r3 V c 1 t
abbrev mblk_r3 (c : Dev nD) (t : Fin cfg3.N) : Vec Ideal S512x1024 .f32 := iblk_r3 V c 2 t
abbrev mublk_r3 (c : Dev nD) (t : Fin cfg3.N) : Vec Ideal S1x512 .f32 := iblk_r3 V c 3 t
abbrev sgblk_r3 (c : Dev nD) (t : Fin cfg3.N) : Vec Ideal S1x512 .f32 := iblk_r3 V c 4 t
abbrev zblk_r3 (c : Dev nD) (t : Fin cfg3.N) : Vec Ideal S512x512 .f32 := iblk_r3 V c 5 t

theorem xblk_r3_apply (c : Dev nD) (t : Fin cfg3.N) (p : Fin 512) (r : Fin 1024) (a i : Fin 4096)
    (ha : a.val = 512 * (t.val / 32) + p.val) (hi : i.val = 1024 * (t.val % 4) + r.val) :
    xblk_r3 V c t (ix2 p r) = xarr_r3 V c (ix2 a i) := by
  obtain ⟨e0, e1, -⟩ := idx_facts_r3 t
  show xarr_r3 V c (((cfg3.win 0).blk t).view.emb (ix2 p r)) = _
  refine congrArg _ (funext fun ax => Fin.ext ?_)
  match ax with
  | ⟨0, _⟩ => show win3_0.index t (0 : Fin 2) * 512 + 1 * p.val = a.val; omega
  | ⟨1, _⟩ => show win3_0.index t (1 : Fin 2) * 1024 + 1 * r.val = i.val; omega

theorem wblk_r3_apply (c : Dev nD) (t : Fin cfg3.N) (q : Fin 512) (r : Fin 1024) (b i : Fin 4096)
    (hb : b.val = 512 * (t.val / 4 % 8) + q.val) (hi : i.val = 1024 * (t.val % 4) + r.val) :
    wblk_r3 V c t (ix2 q r) = warr_r3 V c (ix2 b i) := by
  obtain ⟨-, -, e0, e1, -⟩ := idx_facts_r3 t
  show warr_r3 V c (((cfg3.win 1).blk t).view.emb (ix2 q r)) = _
  refine congrArg _ (funext fun ax => Fin.ext ?_)
  match ax with
  | ⟨0, _⟩ => show win3_1.index t (0 : Fin 2) * 512 + 1 * q.val = b.val; omega
  | ⟨1, _⟩ => show win3_1.index t (1 : Fin 2) * 1024 + 1 * r.val = i.val; omega

theorem mblk_r3_apply (c : Dev nD) (t : Fin cfg3.N) (q : Fin 512) (r : Fin 1024) (b i : Fin 4096)
    (hb : b.val = 512 * (t.val / 4 % 8) + q.val) (hi : i.val = 1024 * (t.val % 4) + r.val) :
    mblk_r3 V c t (ix2 q r) = marr_r3 V c (ix2 b i) := by
  obtain ⟨-, -, -, -, e0, e1, -⟩ := idx_facts_r3 t
  show marr_r3 V c (((cfg3.win 2).blk t).view.emb (ix2 q r)) = _
  refine congrArg _ (funext fun ax => Fin.ext ?_)
  match ax with
  | ⟨0, _⟩ => show win3_2.index t (0 : Fin 2) * 512 + 1 * q.val = b.val; omega
  | ⟨1, _⟩ => show win3_2.index t (1 : Fin 2) * 1024 + 1 * r.val = i.val; omega

theorem mublk_r3_apply (c : Dev nD) (t : Fin cfg3.N) (q : Fin 512) (b : Fin 4096)
    (hb : b.val = 512 * (t.val / 4 % 8) + q.val) :
    mublk_r3 V c t (ix2 (0 : Fin 1) q) = muarr_r3 V c (ix2 (0 : Fin 1) b) := by
  obtain ⟨-, -, -, -, -, -, e0, e1, -⟩ := idx_facts_r3 t
  show muarr_r3 V c (((cfg3.win 3).blk t).view.emb (ix2 (0 : Fin 1) q)) = _
  refine congrArg _ (funext fun ax => Fin.ext ?_)
  match ax with
  | ⟨0, _⟩ => show win3_3.index t (0 : Fin 2) * 1 + 1 * (0 : Fin 1).val = (0 : Fin 1).val; omega
  | ⟨1, _⟩ => show win3_3.index t (1 : Fin 2) * 512 + 1 * q.val = b.val; omega

theorem sgblk_r3_apply (c : Dev nD) (t : Fin cfg3.N) (q : Fin 512) (b : Fin 4096)
    (hb : b.val = 512 * (t.val / 4 % 8) + q.val) :
    sgblk_r3 V c t (ix2 (0 : Fin 1) q) = sgarr_r3 V c (ix2 (0 : Fin 1) b) := by
  obtain ⟨-, -, -, -, -, -, -, -, e0, e1, -⟩ := idx_facts_r3 t
  show sgarr_r3 V c (((cfg3.win 4).blk t).view.emb (ix2 (0 : Fin 1) q)) = _
  refine congrArg _ (funext fun ax => Fin.ext ?_)
  match ax with
  | ⟨0, _⟩ => show win3_4.index t (0 : Fin 2) * 1 + 1 * (0 : Fin 1).val = (0 : Fin 1).val; omega
  | ⟨1, _⟩ => show win3_4.index t (1 : Fin 2) * 512 + 1 * q.val = b.val; omega

theorem zblk_r3_apply (c : Dev nD) (t : Fin cfg3.N) (p q : Fin 512) (a b : Fin 4096)
    (ha : a.val = 512 * (t.val / 32) + p.val) (hb : b.val = 512 * (t.val / 4 % 8) + q.val) :
    zblk_r3 V c t (ix2 p q) = zarr_r3 V c (ix2 a b) := by
  obtain ⟨-, -, -, -, -, -, -, -, -, -, e0, e1, -⟩ := idx_facts_r3 t
  show zarr_r3 V c (((cfg3.win 5).blk t).view.emb (ix2 p q)) = _
  refine congrArg _ (funext fun ax => Fin.ext ?_)
  match ax with
  | ⟨0, _⟩ => show win3_5.index t (0 : Fin 2) * 512 + 1 * p.val = a.val; omega
  | ⟨1, _⟩ => show win3_5.index t (1 : Fin 2) * 512 + 1 * q.val = b.val; omega

abbrev term_r3 (c : Dev nD) (a b : Fin 4096) : Fin 4096 → EReal :=
  fun i => xarr_r3 V c (ix2 a i) * (warr_r3 V c (ix2 b i) * marr_r3 V c (ix2 b i))

theorem slab_r3_eq (c : Dev nD) (t : Fin cfg3.N) (acc : Vec Ideal S512x512 .f32) (p q : Fin 512) (a b : Fin 4096)
    (ha : a.val = 512 * (t.val / 32) + p.val) (hb : b.val = 512 * (t.val / 4 % 8) + q.val) :
    k3_pay2 (F := Ideal) (iblk_r3 V c 0 t) (iblk_r3 V c 1 t) (iblk_r3 V c 2 t) acc (ix2 p q)
      = acc (ix2 p q) + ∑ r : Fin 1024, term_r3 V c a b (Cert.Layer.slabIx ⟨t.val % 4, Nat.mod_lt _ (by decide)⟩ r) := by
  refine (pay2_r3_apply (xblk_r3 V c t) (wblk_r3 V c t) (mblk_r3 V c t) acc p q).trans ?_
  refine congrArg (acc (ix2 p q) + ·) (Finset.sum_congr rfl fun r _ => ?_)
  rw [xblk_r3_apply V c t p r a (Cert.Layer.slabIx ⟨t.val % 4, Nat.mod_lt _ (by decide)⟩ r) ha rfl,
    wblk_r3_apply V c t q r b (Cert.Layer.slabIx ⟨t.val % 4, Nat.mod_lt _ (by decide)⟩ r) hb rfl,
    mblk_r3_apply V c t q r b (Cert.Layer.slabIx ⟨t.val % 4, Nat.mod_lt _ (by decide)⟩ r) hb rfl]

theorem accAt_r3_A (c : Dev nD) (t : Fin cfg3.N) (h0 : t.val % 4 = 0) (h1 : ¬t.val % 4 = 3) :
    (outsAt_r3 V c t.val t.isLt).2 = soutA_at_r3 V c t h0 h1 := by
  rw [outsAt_r3_A V c t h0 h1]

theorem accAt_r3_B (c : Dev nD) (t : Fin cfg3.N) (h0 : ¬t.val % 4 = 0) (h1 : ¬t.val % 4 = 3) :
    (outsAt_r3 V c t.val t.isLt).2
      = soutB_at_r3 V c t h0 h1 (outsAt_r3 V c (t.val - 1) (Nat.lt_of_le_of_lt (Nat.sub_le _ _) t.isLt)).2 := by
  rw [outsAt_r3_B V c t h0 h1]

theorem accAt_r3_C (c : Dev nD) (t : Fin cfg3.N) (h0 : ¬t.val % 4 = 0) (h1 : t.val % 4 = 3) :
    (outsAt_r3 V c t.val t.isLt).2
      = soutC_at_r3 V c t h0 h1 (outsAt_r3 V c (t.val - 1) (Nat.lt_of_le_of_lt (Nat.sub_le _ _) t.isLt)).2 := by
  rw [outsAt_r3_C V c t h0 h1]

theorem outAt_r3_C (c : Dev nD) (t : Fin cfg3.N) (h0 : ¬t.val % 4 = 0) (h1 : t.val % 4 = 3) :
    (outsAt_r3 V c t.val t.isLt).1
      = outC_at_r3 V c t h0 h1 (outsAt_r3 V c (t.val - 1) (Nat.lt_of_le_of_lt (Nat.sub_le _ _) t.isLt)).2 := by
  rw [outsAt_r3_C V c t h0 h1]

theorem acc_r3_first (c : Dev nD) (t : Fin cfg3.N) (h0 : t.val % 4 = 0) (p q : Fin 512) (a b : Fin 4096)
    (ha : a.val = 512 * (t.val / 32) + p.val) (hb : b.val = 512 * (t.val / 4 % 8) + q.val) :
    (outsAt_r3 V c t.val t.isLt).2 (ix2 p q) = Cert.Layer.partialDot (term_r3 V c a b) (t.val % 4 + 1) := by
  have h1 : ¬t.val % 4 = 3 := by omega
  rw [accAt_r3_A V c t h0 h1, soutA_at_r3_eq]
  refine (slab_r3_eq V c t _ p q a b ha hb).trans ?_
  rw [pay1_r3_apply, Cert.Layer.partialDot_succ _ _ (Nat.mod_lt _ (by decide))]
  refine congrArg (· + _) ?_
  rw [h0]
  rfl

theorem acc_r3_later (c : Dev nD) (t : Fin cfg3.N) (h0 : ¬t.val % 4 = 0) (p q : Fin 512) (a b : Fin 4096)
    (ha : a.val = 512 * (t.val / 32) + p.val) (hb : b.val = 512 * (t.val / 4 % 8) + q.val)
    (ih : (outsAt_r3 V c (t.val - 1) (Nat.lt_of_le_of_lt (Nat.sub_le _ _) t.isLt)).2 (ix2 p q)
      = Cert.Layer.partialDot (term_r3 V c a b) (t.val % 4)) :
    (outsAt_r3 V c t.val t.isLt).2 (ix2 p q) = Cert.Layer.partialDot (term_r3 V c a b) (t.val % 4 + 1) := by
  rw [Cert.Layer.partialDot_succ _ _ (Nat.mod_lt _ (by decide)), ← ih]
  by_cases h1 : t.val % 4 = 3
  · rw [accAt_r3_C V c t h0 h1, soutC_at_r3_eq]
    exact slab_r3_eq V c t _ p q a b ha hb
  · rw [accAt_r3_B V c t h0 h1, soutB_at_r3_eq]
    exact slab_r3_eq V c t _ p q a b ha hb

-- By induction on the point: inside a group of four points the accumulator is the sum of the slabs seen so far.
theorem acc_r3_eq (c : Dev nD) (n : ℕ) : ∀ (hn : n < cfg3.N) (p q : Fin 512) (a b : Fin 4096),
    a.val = 512 * (n / 32) + p.val → b.val = 512 * (n / 4 % 8) + q.val →
    (outsAt_r3 V c n hn).2 (ix2 p q) = Cert.Layer.partialDot (term_r3 V c a b) (n % 4 + 1) := by
  induction n using Nat.strong_induction_on with
  | _ n ih =>
    intro hn p q a b ha hb
    by_cases h0 : n % 4 = 0
    · exact acc_r3_first V c ⟨n, hn⟩ h0 p q a b ha hb
    · refine acc_r3_later V c ⟨n, hn⟩ h0 p q a b ha hb ?_
      have hprev := ih (n - 1) (by omega) (Nat.lt_of_le_of_lt (Nat.sub_le _ _) hn) p q a b (by omega) (by omega)
      rw [show (n - 1) % 4 + 1 = n % 4 by omega] at hprev
      exact hprev

abbrev layer_r3 (c : Dev nD) : Cert.Layer.SBH.Idx → EReal :=
  Cert.Layer.layer (xarr_r3 V c) (warr_r3 V c) (marr_r3 V c) (muarr_r3 V c) (sgarr_r3 V c) (zarr_r3 V c)

theorem out_r3_eq (c : Dev nD) (t : Fin cfg3.N) (h1 : t.val % 4 = 3) (p q : Fin 512) (a b : Fin 4096)
    (ha : a.val = 512 * (t.val / 32) + p.val) (hb : b.val = 512 * (t.val / 4 % 8) + q.val) :
    (outsAt_r3 V c t.val t.isLt).1 (ix2 p q) = layer_r3 V c (ix2 a b) := by
  have h0 : ¬t.val % 4 = 0 := by omega
  have hacc := acc_r3_eq V c t.val t.isLt p q a b ha hb
  rw [accAt_r3_C V c t h0 h1, soutC_at_r3_eq, show t.val % 4 + 1 = 4 by omega, Cert.Layer.partialDot_four] at hacc
  rw [outAt_r3_C V c t h0 h1, outC_at_r3_eq]
  refine (pay3_r3_apply (mublk_r3 V c t) (sgblk_r3 V c t) (zblk_r3 V c t) _ p q).trans ?_
  rw [hacc, mublk_r3_apply V c t q b hb, sgblk_r3_apply V c t q b hb, zblk_r3_apply V c t p q a b ha hb]
  rfl

theorem flushed_r3_eq (c : Dev nD) (t : Fin cfg3.N) (hf : (cfg3.win 6).flush t = true) :
    (dat_r3 V c).flushed 6 t = ((cfg3.win 6).blk t).view.read (Elt Ideal) (layer_r3 V c) := by
  have h1 : t.val % 4 = 3 := (flush3_6 t).mp hf
  have hN : cfg3.N = 256 := N_3
  have ht : t.val < cfg3.N := t.isLt
  obtain ⟨-, -, -, -, -, -, -, -, -, -, -, -, e0, e1⟩ := idx_facts_r3 t
  show (cfg3.win 6).cut (grid3.coords t) ((dat_r3 V c).after 6 t) = _
  rw [after_r3_6]
  funext j
  obtain ⟨p, q, rfl⟩ : ∃ (p : Fin 512) (q : Fin 512), j = ix2 p q := ⟨j 0, j 1, eq_ix2 j⟩
  have hemb : ((cfg3.win 6).blk t).view.emb (ix2 p q)
      = ix2 (⟨512 * (t.val / 32) + p.val, by omega⟩ : Fin 4096) (⟨512 * (t.val / 4 % 8) + q.val, by omega⟩ : Fin 4096) := by
    refine funext fun ax => Fin.ext ?_
    match ax with
    | ⟨0, _⟩ => show win3_6.index t (0 : Fin 2) * 512 + 1 * p.val = 512 * (t.val / 32) + p.val; omega
    | ⟨1, _⟩ => show win3_6.index t (1 : Fin 2) * 512 + 1 * q.val = 512 * (t.val / 4 % 8) + q.val; omega
  show (outsAt_r3 V c t.val t.isLt).1 (ix2 p q) = layer_r3 V c (((cfg3.win 6).blk t).view.emb (ix2 p q))
  rw [hemb]
  exact out_r3_eq V c t h1 p q _ _ rfl rfl

theorem mem_blk_r3 (t : Fin cfg3.N) (i : Cert.Layer.SBH.Idx) :
    i ∈ ((cfg3.win 6).blk t).view.set
      ↔ ∀ a : Fin 2, win3_6.index t a * S512x512.size a ≤ (i a).val ∧ (i a).val < win3_6.index t a * S512x512.size a + S512x512.size a := by
  show i ∈ ((View.whole (Pipeline.arrRef spec3 6)).slice (win3_6.rect t)).set ↔ _
  rw [View.set_slice_whole, Rect.mem_set_unit]
  exact Iff.rfl

theorem cover_r3 (i : Cert.Layer.SBH.Idx) :
    ∃ t : Fin cfg3.N, (cfg3.win 6).flush t = true ∧ i ∈ ((cfg3.win 6).blk t).view.set := by
  have hN : cfg3.N = 256 := N_3
  have hi0 : (i 0).val < 4096 := (i 0).isLt
  have hi1 : (i 1).val < 4096 := (i 1).isLt
  obtain ⟨t, ht⟩ : ∃ t : Fin cfg3.N, t.val = ((i 0).val / 512 * 8 + (i 1).val / 512) * 4 + 3 := ⟨⟨_, by omega⟩, rfl⟩
  obtain ⟨-, -, -, -, -, -, -, -, -, -, -, -, e0, e1⟩ := idx_facts_r3 t
  refine ⟨t, (flush3_6 t).mpr (by omega), ?_⟩
  rw [mem_blk_r3]
  intro a
  match a with
  | ⟨0, _⟩ => show win3_6.index t (0 : Fin 2) * 512 ≤ (i 0).val ∧ (i 0).val < win3_6.index t (0 : Fin 2) * 512 + 512; omega
  | ⟨1, _⟩ => show win3_6.index t (1 : Fin 2) * 512 ≤ (i 1).val ∧ (i 1).val < win3_6.index t (1 : Fin 2) * 512 + 512; omega

-- Each output entry lies in the block of exactly one last-slab point, which stores the layer's value there.
theorem arr_final_r3 (c : Dev nD) (x w mk : Cert.Layer.SBH.Idx → EReal) (mu sg : Cert.Layer.SRow.Idx → EReal) (z : Cert.Layer.SBH.Idx → EReal)
    (hx : V c (Pipeline.arrRef spec3 0) = x) (hw : V c (Pipeline.arrRef spec3 1) = w) (hmk : V c (Pipeline.arrRef spec3 2) = mk)
    (hmu : V c (Pipeline.arrRef spec3 3) = mu) (hsg : V c (Pipeline.arrRef spec3 4) = sg) (hz : V c (Pipeline.arrRef spec3 5) = z) :
    (dat_r3 (F := Ideal) V c).arrAt 6 cfg3.N = Cert.Layer.layer x w mk mu sg z := by
  subst hx hw hmk hmu hsg hz
  exact (dat_r3 V c).arrAt_eq_of_cover 6 (layer_r3 V c) (fun t hf => flushed_r3_eq V c t hf) (fun i => cover_r3 i)

end Cert.KernelIdeal.Hand

end
-- ==== Proof.RefLayer.lean ====
import proofs.«128115_j49460843381367_1_alg».proof.Proof.Gen.ReferenceIdeal.Read
import proofs.«128115_j49460843381367_1_alg».proof.Proof.Layer
import Idealize.ShloMosaic.PureOps.Ideal
import Idealize.ShloMosaic.PureOps.Ideal.Laws
import Idealize.ShloMosaic.Lib.ValueIdx
import Idealize.ShloMosaic.Lib.Pipeline.Value

noncomputable section

namespace Cert.RefLayer

open Cert.ReferenceIdeal Cert.ReferenceIdeal.Gen Idealize.ShloMosaic Idealize.ShloMosaic.TcCoe Idealize.SL.Sem Idealize.ShloMosaic.StableHlo Idealize.ShloMosaic.ValueIdx

def refLayer (X Wt Mk : FVec Ideal S4096x4096 .f32) (mu1 sg1 : FVec Ideal S1x4096 .f32) (Zt : FVec Ideal S4096x4096 .f32) :
    FVec Ideal S4096x4096 .f32 :=
  maximumf (addf (Host.dotGeneral dot_S4096x4096_S4096x4096_S4096x4096_1_1_0_0_n_n none X (mulf Wt Mk))
    (Host.exp (addf (broadcastInDim S4096x4096 ![0, 1] bcast_S1x4096_S4096x4096_0_1 (broadcastInDim S1x4096 ![1] bcast_S4096_S1x4096_1 (shapeCast _ mu1 shapeCasts_S1x4096_S4096)))
      (mulf (broadcastInDim S4096x4096 ![0, 1] bcast_S1x4096_S4096x4096_0_1 (broadcastInDim S1x4096 ![1] bcast_S4096_S1x4096_1 (shapeCast _ sg1 shapeCasts_S1x4096_S4096))) Zt))))
    (broadcastInDim S4096x4096 ![] bcast_S_S4096x4096 (constant (F := Ideal) S_ .f32 0x00000000#32))

def sl3_0 (A : FVec Ideal S4x4096x4096 .f32) : FVec Ideal S4096x4096 .f32 :=
  shapeCast _ (extractStridedSlice S1x4096x4096 ![0, 0, 0] A slices_S4x4096x4096_S1x4096x4096_0_0_0) shapeCasts_S1x4096x4096_S4096x4096

def sl3_1 (A : FVec Ideal S4x4096x4096 .f32) : FVec Ideal S4096x4096 .f32 :=
  shapeCast _ (extractStridedSlice S1x4096x4096 ![1, 0, 0] A slices_S4x4096x4096_S1x4096x4096_1_0_0) shapeCasts_S1x4096x4096_S4096x4096

def sl3_2 (A : FVec Ideal S4x4096x4096 .f32) : FVec Ideal S4096x4096 .f32 :=
  shapeCast _ (extractStridedSlice S1x4096x4096 ![2, 0, 0] A slices_S4x4096x4096_S1x4096x4096_2_0_0) shapeCasts_S1x4096x4096_S4096x4096

def sl3_3 (A : FVec Ideal S4x4096x4096 .f32) : FVec Ideal S4096x4096 .f32 :=
  shapeCast _ (extractStridedSlice S1x4096x4096 ![3, 0, 0] A slices_S4x4096x4096_S1x4096x4096_3_0_0) shapeCasts_S1x4096x4096_S4096x4096

def sl2_0 (B : FVec Ideal S4x4096 .f32) : FVec Ideal S1x4096 .f32 := extractStridedSlice S1x4096 ![0, 0] B slices_S4x4096_S1x4096_0_0

def sl2_1 (B : FVec Ideal S4x4096 .f32) : FVec Ideal S1x4096 .f32 := extractStridedSlice S1x4096 ![1, 0] B slices_S4x4096_S1x4096_1_0

def sl2_2 (B : FVec Ideal S4x4096 .f32) : FVec Ideal S1x4096 .f32 := extractStridedSlice S1x4096 ![2, 0] B slices_S4x4096_S1x4096_2_0

def sl2_3 (B : FVec Ideal S4x4096 .f32) : FVec Ideal S1x4096 .f32 := extractStridedSlice S1x4096 ![3, 0] B slices_S4x4096_S1x4096_3_0

def act0 (m : (ℓ : Loc nD τ sig) → Buf (Elt Ideal) ℓ) (c : Dev nD) : FVec Ideal S4096x4096 .f32 :=
  refLayer (m ((c.tc : Thread nD τ).loc main_arg0)) (sl3_0 (m ((c.tc : Thread nD τ).loc main_arg1))) (sl3_0 (m ((c.tc : Thread nD τ).loc main_arg2)))
    (sl2_0 (m ((c.tc : Thread nD τ).loc main_arg3))) (sl2_0 (m ((c.tc : Thread nD τ).loc main_arg4))) (sl3_0 (m ((c.tc : Thread nD τ).loc main_arg5)))
def act1 (m : (ℓ : Loc nD τ sig) → Buf (Elt Ideal) ℓ) (c : Dev nD) : FVec Ideal S4096x4096 .f32 :=
  refLayer (act0 m c) (sl3_1 (m ((c.tc : Thread nD τ).loc main_arg1))) (sl3_1 (m ((c.tc : Thread nD τ).loc main_arg2)))
    (sl2_1 (m ((c.tc : Thread nD τ).loc main_arg3))) (sl2_1 (m ((c.tc : Thread nD τ).loc main_arg4))) (sl3_1 (m ((c.tc : Thread nD τ).loc main_arg5)))
def act2 (m : (ℓ : Loc nD τ sig) → Buf (Elt Ideal) ℓ) (c : Dev nD) : FVec Ideal S4096x4096 .f32 :=
  refLayer (act1 m c) (sl3_2 (m ((c.tc : Thread nD τ).loc main_arg1))) (sl3_2 (m ((c.tc : Thread nD τ).loc main_arg2)))
    (sl2_2 (m ((c.tc : Thread nD τ).loc main_arg3))) (sl2_2 (m ((c.tc : Thread nD τ).loc main_arg4))) (sl3_2 (m ((c.tc : Thread nD τ).loc main_arg5)))
def act3 (m : (ℓ : Loc nD τ sig) → Buf (Elt Ideal) ℓ) (c : Dev nD) : FVec Ideal S4096x4096 .f32 :=
  refLayer (act2 m c) (sl3_3 (m ((c.tc : Thread nD τ).loc main_arg1))) (sl3_3 (m ((c.tc : Thread nD τ).loc main_arg2)))
    (sl2_3 (m ((c.tc : Thread nD τ).loc main_arg3))) (sl2_3 (m ((c.tc : Thread nD τ).loc main_arg4))) (sl3_3 (m ((c.tc : Thread nD τ).loc main_arg5)))

set_option maxRecDepth 8192 in
theorem res_eq (m : (ℓ : Loc nD τ sig) → Buf (Elt Ideal) ℓ) (c : Dev nD) :
    Cert.ReferenceIdeal.Value.res_main_v84 (F := Ideal) m c
      = concatenate S4096x16384 1 [⟨S4096x4096, act0 m c⟩, ⟨S4096x4096, act1 m c⟩, ⟨S4096x4096, act2 m c⟩, ⟨S4096x4096, act3 m c⟩]
          concatenates_S4096x4096_S4096x4096_S4096x4096_S4096x4096_S4096x16384_d1 := by
  unfold Cert.ReferenceIdeal.Value.res_main_v84 act3 act2 act1 act0 refLayer sl3_0 sl3_1 sl3_2 sl3_3 sl2_0 sl2_1 sl2_2 sl2_3
  rfl

theorem dot_apply (l r : FVec Ideal S4096x4096 .f32) (i : S4096x4096.Idx) :
    Host.dotGeneral dot_S4096x4096_S4096x4096_S4096x4096_1_1_0_0_n_n none l r i = ∑ k : Fin 4096, l (ix2 (i 0) k) * r (ix2 (i 1) k) := by
  simp only [Host.dotGeneral]
  rw [Ideal.dotGeneral_apply, ← Equiv.sum_comp (ValueIdx.contrEquiv1 dot_S4096x4096_S4096x4096_S4096x4096_1_1_0_0_n_n 4096 rfl rfl).symm]
  refine Finset.sum_congr rfl fun k _ => ?_
  have hk := ValueIdx.contrEquiv1_symm_val dot_S4096x4096_S4096x4096_S4096x4096_1_1_0_0_n_n 4096 rfl rfl k
  have el : dot_S4096x4096_S4096x4096_S4096x4096_1_1_0_0_n_n.lhsIdx i ((ValueIdx.contrEquiv1 dot_S4096x4096_S4096x4096_S4096x4096_1_1_0_0_n_n 4096 rfl rfl).symm k) = ix2 (i 0) k := funext fun a => Fin.ext (by
    match a with
    | ⟨0, _⟩ => exact Cert.ReferenceIdeal.Read.lhs_main_v5_0 _ _
    | ⟨1, _⟩ => exact (Cert.ReferenceIdeal.Read.lhs_main_v5_1 _ _).trans hk)
  have er : dot_S4096x4096_S4096x4096_S4096x4096_1_1_0_0_n_n.rhsIdx i ((ValueIdx.contrEquiv1 dot_S4096x4096_S4096x4096_S4096x4096_1_1_0_0_n_n 4096 rfl rfl).symm k) = ix2 (i 1) k := funext fun a => Fin.ext (by
    match a with
    | ⟨0, _⟩ => exact Cert.ReferenceIdeal.Read.rhs_main_v5_0 _ _
    | ⟨1, _⟩ => exact (Cert.ReferenceIdeal.Read.rhs_main_v5_1 _ _).trans hk)
  rw [el, er]
  rfl

theorem row_apply (v : FVec Ideal S1x4096 .f32) (i : S4096x4096.Idx) :
    broadcastInDim S4096x4096 ![0, 1] bcast_S1x4096_S4096x4096_0_1
      (broadcastInDim S1x4096 ![1] bcast_S4096_S1x4096_1 (shapeCast _ v shapeCasts_S1x4096_S4096)) i
      = v (ix2 (0 : Fin 1) (i 1)) := by
  rw [broadcastInDim_apply _ bcast_S1x4096_S4096x4096_0_1 _ i (ix2 (0 : Fin 1) (i 1)) (fun a => match a with
    | ⟨0, _⟩ => by show 0 = if (1 : Nat) = 1 then 0 else (i 0).val; rw [if_pos rfl]
    | ⟨1, _⟩ => by show (i 1).val = if (4096 : Nat) = 1 then 0 else (i 1).val; rw [if_neg (by decide)])]
  rw [broadcastInDim_apply _ bcast_S4096_S1x4096_1 _ (ix2 (0 : Fin 1) (i 1)) (ix1 (i 1)) (fun a => match a with
    | ⟨0, _⟩ => by show (i 1).val = if (4096 : Nat) = 1 then 0 else (i 1).val; rw [if_neg (by decide)])]
  exact shapeCast_apply v shapeCasts_S1x4096_S4096 (ix1 (i 1)) (ix2 (0 : Fin 1) (i 1))
    (by rewrite [Shape.rowMajor_val_two, Shape.rowMajor_val_one]; show 0 * 4096 + (i 1).val = (i 1).val; omega)

theorem zero_apply (i : S4096x4096.Idx) :
    broadcastInDim S4096x4096 ![] bcast_S_S4096x4096 (constant (F := Ideal) S_ .f32 0x00000000#32) i = 0 := by
  rw [broadcastInDim_apply _ bcast_S_S4096x4096 _ i ix0 (fun a => a.elim0)]
  exact Ideal.ofBits_zero_f32

theorem exp_apply (v : FVec Ideal S4096x4096 .f32) (i : S4096x4096.Idx) : Host.exp v i = Ideal.exp (v i) := rfl

theorem refLayer_eq_layer (X Wt Mk : FVec Ideal S4096x4096 .f32) (mu1 sg1 : FVec Ideal S1x4096 .f32) (Zt : FVec Ideal S4096x4096 .f32) :
    refLayer X Wt Mk mu1 sg1 Zt = Cert.Layer.layer X Wt Mk mu1 sg1 Zt := by
  funext j
  unfold refLayer Cert.Layer.layer
  rw [maximumf_apply, addf_apply, dot_apply, zero_apply, exp_apply, addf_apply, mulf_apply, row_apply, row_apply]
  simp only [mulf_apply]

def lay0 (x : FVec Ideal S4096x4096 .f32) (W M : FVec Ideal S4x4096x4096 .f32) (Mu Sg : FVec Ideal S4x4096 .f32) (Z : FVec Ideal S4x4096x4096 .f32) : FVec Ideal S4096x4096 .f32 :=
  Cert.Layer.layer x (sl3_0 W) (sl3_0 M) (sl2_0 Mu) (sl2_0 Sg) (sl3_0 Z)

def lay1 (x : FVec Ideal S4096x4096 .f32) (W M : FVec Ideal S4x4096x4096 .f32) (Mu Sg : FVec Ideal S4x4096 .f32) (Z : FVec Ideal S4x4096x4096 .f32) : FVec Ideal S4096x4096 .f32 :=
  Cert.Layer.layer (lay0 x W M Mu Sg Z) (sl3_1 W) (sl3_1 M) (sl2_1 Mu) (sl2_1 Sg) (sl3_1 Z)

def lay2 (x : FVec Ideal S4096x4096 .f32) (W M : FVec Ideal S4x4096x4096 .f32) (Mu Sg : FVec Ideal S4x4096 .f32) (Z : FVec Ideal S4x4096x4096 .f32) : FVec Ideal S4096x4096 .f32 :=
  Cert.Layer.layer (lay1 x W M Mu Sg Z) (sl3_2 W) (sl3_2 M) (sl2_2 Mu) (sl2_2 Sg) (sl3_2 Z)

def lay3 (x : FVec Ideal S4096x4096 .f32) (W M : FVec Ideal S4x4096x4096 .f32) (Mu Sg : FVec Ideal S4x4096 .f32) (Z : FVec Ideal S4x4096x4096 .f32) : FVec Ideal S4096x4096 .f32 :=
  Cert.Layer.layer (lay2 x W M Mu Sg Z) (sl3_3 W) (sl3_3 M) (sl2_3 Mu) (sl2_3 Sg) (sl3_3 Z)

def out4 (x : FVec Ideal S4096x4096 .f32) (W M : FVec Ideal S4x4096x4096 .f32) (Mu Sg : FVec Ideal S4x4096 .f32) (Z : FVec Ideal S4x4096x4096 .f32) : FVec Ideal S4096x16384 .f32 :=
  concatenate S4096x16384 1 [⟨S4096x4096, lay0 x W M Mu Sg Z⟩, ⟨S4096x4096, lay1 x W M Mu Sg Z⟩, ⟨S4096x4096, lay2 x W M Mu Sg Z⟩, ⟨S4096x4096, lay3 x W M Mu Sg Z⟩]
    concatenates_S4096x4096_S4096x4096_S4096x4096_S4096x4096_S4096x16384_d1

theorem act0_eq (m : (ℓ : Loc nD τ sig) → Buf (Elt Ideal) ℓ) (c : Dev nD) :
    act0 m c = lay0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold act0 lay0
  exact refLayer_eq_layer _ _ _ _ _ _

theorem act1_eq (m : (ℓ : Loc nD τ sig) → Buf (Elt Ideal) ℓ) (c : Dev nD) :
    act1 m c = lay1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold act1 lay1
  rw [act0_eq]
  exact refLayer_eq_layer _ _ _ _ _ _

theorem act2_eq (m : (ℓ : Loc nD τ sig) → Buf (Elt Ideal) ℓ) (c : Dev nD) :
    act2 m c = lay2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold act2 lay2
  rw [act1_eq]
  exact refLayer_eq_layer _ _ _ _ _ _

theorem act3_eq (m : (ℓ : Loc nD τ sig) → Buf (Elt Ideal) ℓ) (c : Dev nD) :
    act3 m c = lay3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold act3 lay3
  rw [act2_eq]
  exact refLayer_eq_layer _ _ _ _ _ _

theorem res_eq_out4 (m : (ℓ : Loc nD τ sig) → Buf (Elt Ideal) ℓ) (c : Dev nD) :
    Cert.ReferenceIdeal.Value.res_main_v84 (F := Ideal) m c
      = out4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [res_eq, act0_eq, act1_eq, act2_eq, act3_eq]
  rfl

theorem row_roundtrip (B1 : FVec Ideal S1x4096 .f32) (h1 : S1x4096.ShapeCasts S4096) (h2 : S4096.ShapeCasts S1x4096) :
    shapeCast S1x4096 (shapeCast S4096 B1 h1) h2 = B1 :=
  shapeCast_shapeCast B1 h1 h2

end Cert.RefLayer

end
-- ==== Proof.KernelIdeal.Chain.lean ====
import proofs.«128115_j49460843381367_1_alg».proof.Proof.KernelIdeal.Args
import proofs.«128115_j49460843381367_1_alg».proof.Proof.KernelIdeal.R0.Value
import proofs.«128115_j49460843381367_1_alg».proof.Proof.KernelIdeal.R1.Value
import proofs.«128115_j49460843381367_1_alg».proof.Proof.KernelIdeal.R2.Value
import proofs.«128115_j49460843381367_1_alg».proof.Proof.KernelIdeal.R3.Value
import proofs.«128115_j49460843381367_1_alg».proof.Proof.RefLayer
import Idealize.ShloMosaic.Lib.StableHlo.Run

set_option maxRecDepth 16384

noncomputable section

namespace Cert.KernelIdeal.Hand

open Idealize.ShloMosaic Idealize.ShloMosaic.TcCoe Idealize.ShloMosaic.StableHlo
open Idealize.SL Idealize.SL.Sem
open Idealize.ShloMosaic.Pipeline (Dat Cfg Window)
open Cert.KernelIdeal Cert.KernelIdeal.Gen

variable (m : (ℓ : Loc nD τ sig) → Buf (Elt Ideal) ℓ)

theorem W1_main_v1 (c : Dev nD) : W1 m c (Proc.devRef .tc main_v1) = Cert.RefLayer.sl3_0 (m ((c : Thread nD τ).loc main_arg1)) := by
  have e : W1 m c (Proc.devRef .tc main_v1) = Cert.RefLayer.sl3_0 (m ((c : Thread nD τ).loc main_arg1)) := by
    show StableHlo.after hostOps0 (W0 m c) (Proc.devRef .tc main_v1) = _
    after_results; rfl
  rw [e]
theorem W1_main_v3 (c : Dev nD) : W1 m c (Proc.devRef .tc main_v3) = Cert.RefLayer.sl3_0 (m ((c : Thread nD τ).loc main_arg2)) := by
  have e : W1 m c (Proc.devRef .tc main_v3) = Cert.RefLayer.sl3_0 (m ((c : Thread nD τ).loc main_arg2)) := by
    show StableHlo.after hostOps0 (W0 m c) (Proc.devRef .tc main_v3) = _
    after_results; rfl
  rw [e]
theorem W1_main_v6 (c : Dev nD) : W1 m c (Proc.devRef .tc main_v6) = Cert.RefLayer.sl2_0 (m ((c : Thread nD τ).loc main_arg3)) := by
  have e : W1 m c (Proc.devRef .tc main_v6) = shapeCast _ (shapeCast _ (Cert.RefLayer.sl2_0 (m ((c : Thread nD τ).loc main_arg3))) shapeCasts_S1x4096_S4096) shapeCasts_S4096_S1x4096 := by
    show StableHlo.after hostOps0 (W0 m c) (Proc.devRef .tc main_v6) = _
    after_results; rfl
  rw [e, Cert.RefLayer.row_roundtrip]
theorem W1_main_v9 (c : Dev nD) : W1 m c (Proc.devRef .tc main_v9) = Cert.RefLayer.sl2_0 (m ((c : Thread nD τ).loc main_arg4)) := by
  have e : W1 m c (Proc.devRef .tc main_v9) = shapeCast _ (shapeCast _ (Cert.RefLayer.sl2_0 (m ((c : Thread nD τ).loc main_arg4))) shapeCasts_S1x4096_S4096) shapeCasts_S4096_S1x4096 := by
    show StableHlo.after hostOps0 (W0 m c) (Proc.devRef .tc main_v9) = _
    after_results; rfl
  rw [e, Cert.RefLayer.row_roundtrip]
theorem W1_main_v11 (c : Dev nD) : W1 m c (Proc.devRef .tc main_v11) = Cert.RefLayer.sl3_0 (m ((c : Thread nD τ).loc main_arg5)) := by
  have e : W1 m c (Proc.devRef .tc main_v11) = Cert.RefLayer.sl3_0 (m ((c : Thread nD τ).loc main_arg5)) := by
    show StableHlo.after hostOps0 (W0 m c) (Proc.devRef .tc main_v11) = _
    after_results; rfl
  rw [e]

theorem W2_main_v12_val (c : Dev nD) : W2 m c (Proc.devRef .tc main_v12) = Cert.RefLayer.lay0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m c 6).trans ?_
  exact arr_final_r0 (Vr1 m) c _ _ _ _ _ _ ((W1_of m c main_arg0 (by decide)).trans rfl) (W1_main_v1 m c) (W1_main_v3 m c) (W1_main_v6 m c) (W1_main_v9 m c) (W1_main_v11 m c)

theorem W3_main_v14 (c : Dev nD) : W3 m c (Proc.devRef .tc main_v14) = Cert.RefLayer.sl3_1 (m ((c : Thread nD τ).loc main_arg1)) := by
  rw [← W2_arg m c main_arg1 (by decide)]
  show StableHlo.after hostOps1 (W2 m c) (Proc.devRef .tc main_v14) = _
  after_results; rfl
theorem W3_main_v16 (c : Dev nD) : W3 m c (Proc.devRef .tc main_v16) = Cert.RefLayer.sl3_1 (m ((c : Thread nD τ).loc main_arg2)) := by
  rw [← W2_arg m c main_arg2 (by decide)]
  show StableHlo.after hostOps1 (W2 m c) (Proc.devRef .tc main_v16) = _
  after_results; rfl
theorem W3_main_v19 (c : Dev nD) : W3 m c (Proc.devRef .tc main_v19) = Cert.RefLayer.sl2_1 (m ((c : Thread nD τ).loc main_arg3)) := by
  have e : W3 m c (Proc.devRef .tc main_v19) = shapeCast _ (shapeCast _ (Cert.RefLayer.sl2_1 (W2 m c (Proc.devRef .tc main_arg3))) shapeCasts_S1x4096_S4096) shapeCasts_S4096_S1x4096 := by
    show StableHlo.after hostOps1 (W2 m c) (Proc.devRef .tc main_v19) = _
    after_results; rfl
  rw [e, Cert.RefLayer.row_roundtrip, W2_arg m c main_arg3 (by decide)]
theorem W3_main_v22 (c : Dev nD) : W3 m c (Proc.devRef .tc main_v22) = Cert.RefLayer.sl2_1 (m ((c : Thread nD τ).loc main_arg4)) := by
  have e : W3 m c (Proc.devRef .tc main_v22) = shapeCast _ (shapeCast _ (Cert.RefLayer.sl2_1 (W2 m c (Proc.devRef .tc main_arg4))) shapeCasts_S1x4096_S4096) shapeCasts_S4096_S1x4096 := by
    show StableHlo.after hostOps1 (W2 m c) (Proc.devRef .tc main_v22) = _
    after_results; rfl
  rw [e, Cert.RefLayer.row_roundtrip, W2_arg m c main_arg4 (by decide)]
theorem W3_main_v24 (c : Dev nD) : W3 m c (Proc.devRef .tc main_v24) = Cert.RefLayer.sl3_1 (m ((c : Thread nD τ).loc main_arg5)) := by
  rw [← W2_arg m c main_arg5 (by decide)]
  show StableHlo.after hostOps1 (W2 m c) (Proc.devRef .tc main_v24) = _
  after_results; rfl

theorem W4_main_v25_val (c : Dev nD) : W4 m c (Proc.devRef .tc main_v25) = Cert.RefLayer.lay1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m c 6).trans ?_
  exact arr_final_r1 (Vr3 m) c _ _ _ _ _ _ ((W3_of m c main_v12 (by decide)).trans (W2_main_v12_val m c)) (W3_main_v14 m c) (W3_main_v16 m c) (W3_main_v19 m c) (W3_main_v22 m c) (W3_main_v24 m c)

theorem W5_main_v27 (c : Dev nD) : W5 m c (Proc.devRef .tc main_v27) = Cert.RefLayer.sl3_2 (m ((c : Thread nD τ).loc main_arg1)) := by
  rw [← W4_arg m c main_arg1 (by decide)]
  show StableHlo.after hostOps2 (W4 m c) (Proc.devRef .tc main_v27) = _
  after_results; rfl
theorem W5_main_v29 (c : Dev nD) : W5 m c (Proc.devRef .tc main_v29) = Cert.RefLayer.sl3_2 (m ((c : Thread nD τ).loc main_arg2)) := by
  rw [← W4_arg m c main_arg2 (by decide)]
  show StableHlo.after hostOps2 (W4 m c) (Proc.devRef .tc main_v29) = _
  after_results; rfl
theorem W5_main_v32 (c : Dev nD) : W5 m c (Proc.devRef .tc main_v32) = Cert.RefLayer.sl2_2 (m ((c : Thread nD τ).loc main_arg3)) := by
  have e : W5 m c (Proc.devRef .tc main_v32) = shapeCast _ (shapeCast _ (Cert.RefLayer.sl2_2 (W4 m c (Proc.devRef .tc main_arg3))) shapeCasts_S1x4096_S4096) shapeCasts_S4096_S1x4096 := by
    show StableHlo.after hostOps2 (W4 m c) (Proc.devRef .tc main_v32) = _
    after_results; rfl
  rw [e, Cert.RefLayer.row_roundtrip, W4_arg m c main_arg3 (by decide)]
theorem W5_main_v35 (c : Dev nD) : W5 m c (Proc.devRef .tc main_v35) = Cert.RefLayer.sl2_2 (m ((c : Thread nD τ).loc main_arg4)) := by
  have e : W5 m c (Proc.devRef .tc main_v35) = shapeCast _ (shapeCast _ (Cert.RefLayer.sl2_2 (W4 m c (Proc.devRef .tc main_arg4))) shapeCasts_S1x4096_S4096) shapeCasts_S4096_S1x4096 := by
    show StableHlo.after hostOps2 (W4 m c) (Proc.devRef .tc main_v35) = _
    after_results; rfl
  rw [e, Cert.RefLayer.row_roundtrip, W4_arg m c main_arg4 (by decide)]
theorem W5_main_v37 (c : Dev nD) : W5 m c (Proc.devRef .tc main_v37) = Cert.RefLayer.sl3_2 (m ((c : Thread nD τ).loc main_arg5)) := by
  rw [← W4_arg m c main_arg5 (by decide)]
  show StableHlo.after hostOps2 (W4 m c) (Proc.devRef .tc main_v37) = _
  after_results; rfl

theorem W6_main_v38_val (c : Dev nD) : W6 m c (Proc.devRef .tc main_v38) = Cert.RefLayer.lay2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m c 6).trans ?_
  exact arr_final_r2 (Vr5 m) c _ _ _ _ _ _ ((W5_of m c main_v25 (by decide)).trans (W4_main_v25_val m c)) (W5_main_v27 m c) (W5_main_v29 m c) (W5_main_v32 m c) (W5_main_v35 m c) (W5_main_v37 m c)

theorem W7_main_v40 (c : Dev nD) : W7 m c (Proc.devRef .tc main_v40) = Cert.RefLayer.sl3_3 (m ((c : Thread nD τ).loc main_arg1)) := by
  rw [← W6_arg m c main_arg1 (by decide)]
  show StableHlo.after hostOps3 (W6 m c) (Proc.devRef .tc main_v40) = _
  after_results; rfl
theorem W7_main_v42 (c : Dev nD) : W7 m c (Proc.devRef .tc main_v42) = Cert.RefLayer.sl3_3 (m ((c : Thread nD τ).loc main_arg2)) := by
  rw [← W6_arg m c main_arg2 (by decide)]
  show StableHlo.after hostOps3 (W6 m c) (Proc.devRef .tc main_v42) = _
  after_results; rfl
theorem W7_main_v45 (c : Dev nD) : W7 m c (Proc.devRef .tc main_v45) = Cert.RefLayer.sl2_3 (m ((c : Thread nD τ).loc main_arg3)) := by
  have e : W7 m c (Proc.devRef .tc main_v45) = shapeCast _ (shapeCast _ (Cert.RefLayer.sl2_3 (W6 m c (Proc.devRef .tc main_arg3))) shapeCasts_S1x4096_S4096) shapeCasts_S4096_S1x4096 := by
    show StableHlo.after hostOps3 (W6 m c) (Proc.devRef .tc main_v45) = _
    after_results; rfl
  rw [e, Cert.RefLayer.row_roundtrip, W6_arg m c main_arg3 (by decide)]
theorem W7_main_v48 (c : Dev nD) : W7 m c (Proc.devRef .tc main_v48) = Cert.RefLayer.sl2_3 (m ((c : Thread nD τ).loc main_arg4)) := by
  have e : W7 m c (Proc.devRef .tc main_v48) = shapeCast _ (shapeCast _ (Cert.RefLayer.sl2_3 (W6 m c (Proc.devRef .tc main_arg4))) shapeCasts_S1x4096_S4096) shapeCasts_S4096_S1x4096 := by
    show StableHlo.after hostOps3 (W6 m c) (Proc.devRef .tc main_v48) = _
    after_results; rfl
  rw [e, Cert.RefLayer.row_roundtrip, W6_arg m c main_arg4 (by decide)]
theorem W7_main_v50 (c : Dev nD) : W7 m c (Proc.devRef .tc main_v50) = Cert.RefLayer.sl3_3 (m ((c : Thread nD τ).loc main_arg5)) := by
  rw [← W6_arg m c main_arg5 (by decide)]
  show StableHlo.after hostOps3 (W6 m c) (Proc.devRef .tc main_v50) = _
  after_results; rfl

theorem W8_main_v51_val (c : Dev nD) : W8 m c (Proc.devRef .tc main_v51) = Cert.RefLayer.lay3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m c 6).trans ?_
  exact arr_final_r3 (Vr7 m) c _ _ _ _ _ _ ((W7_of m c main_v38 (by decide)).trans (W6_main_v38_val m c)) (W7_main_v40 m c) (W7_main_v42 m c) (W7_main_v45 m c) (W7_main_v48 m c) (W7_main_v50 m c)

theorem W9_main_v52_val (c : Dev nD) : W9 m c (Proc.devRef .tc main_v52) = Cert.RefLayer.out4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have e : W9 m c (Proc.devRef .tc main_v52)
      = concatenate S4096x16384 1 [⟨S4096x4096, W8 m c (Proc.devRef .tc main_v12)⟩, ⟨S4096x4096, W8 m c (Proc.devRef .tc main_v25)⟩, ⟨S4096x4096, W8 m c (Proc.devRef .tc main_v38)⟩, ⟨S4096x4096, W8 m c (Proc.devRef .tc main_v51)⟩] concatenates_S4096x4096_S4096x4096_S4096x4096_S4096x4096_S4096x16384_d1 := by
    show StableHlo.after hostOps4 (W8 m c) (Proc.devRef .tc main_v52) = _
    after_results; rfl
  rw [e, (W8_W6 m c main_v12 (by decide)).trans ((W6_W4 m c main_v12 (by decide)).trans (W4_W2 m c main_v12 (by decide))),
    (W8_W6 m c main_v25 (by decide)).trans (W6_W4 m c main_v25 (by decide)), W8_W6 m c main_v38 (by decide), W2_main_v12_val, W4_main_v25_val, W6_main_v38_val, W8_main_v51_val]
  rfl

end Cert.KernelIdeal.Hand

end
-- ==== Proof.KernelIdeal.Result.lean ====
import proofs.«128115_j49460843381367_1_alg».proof.Proof.KernelIdeal.Launch
import proofs.«128115_j49460843381367_1_alg».proof.Proof.KernelIdeal.Chain

set_option maxRecDepth 16384

noncomputable section

namespace Cert.KernelIdeal.Hand

open Idealize.ShloMosaic Idealize.ShloMosaic.TcCoe
open Idealize.SL Idealize.SL.Sem
open Cert.KernelIdeal Cert.KernelIdeal.Gen

variable (m : (ℓ : Loc nD τ sig) → Buf (Elt Ideal) ℓ) (ρ : Dev nD → PrngReg)

theorem run_value : θ_run defs (onTc (τ := τ) (main (F := Ideal))) ⟨m, fun _ => 0, ρ⟩ (fun r => ∀ c : Dev nD,
      r.2.mem ((c.tc : Thread nD τ).loc main_v52) = Cert.RefLayer.out4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v52 (by decide))).trans (W9_main_v52_val m c),
     (h c _ (mem_uc main_arg0 (by decide))).trans (W9_arg m c main_arg0 (by decide)),
     (h c _ (mem_uc main_arg1 (by decide))).trans (W9_arg m c main_arg1 (by decide)),
     (h c _ (mem_uc main_arg2 (by decide))).trans (W9_arg m c main_arg2 (by decide)),
     (h c _ (mem_uc main_arg3 (by decide))).trans (W9_arg m c main_arg3 (by decide)),
     (h c _ (mem_uc main_arg4 (by decide))).trans (W9_arg m c main_arg4 (by decide)),
     (h c _ (mem_uc main_arg5 (by decide))).trans (W9_arg m c main_arg5 (by decide))⟩) (run_all m ρ)

end Cert.KernelIdeal.Hand

end
-- ==== Proof.lean ====
/-
  Four layers  max(x · (W ∘ mask)ᵀ + exp(mu + sigma ∘ z), 0), each fed the one before, the four activations side by side.
  Kernel and reference give the same extended reals entry by entry: the kernel adds each contraction up in four slabs
  of 1024, which regroups one finite sum, so finiteness of the inputs is never used. The word-level program and its
  idealization are one text, so one frame proof, generic in the float instance, serves both.
-/
import proofs.«128115_j49460843381367_1_alg».proof.Defs
import proofs.«128115_j49460843381367_1_alg».proof.Proof.Gen.Kernel
import proofs.«128115_j49460843381367_1_alg».proof.Proof.Gen.KernelIdeal
import proofs.«128115_j49460843381367_1_alg».proof.Proof.Gen.ReferenceIdeal
import proofs.«128115_j49460843381367_1_alg».proof.Proof.Gen.ReferenceIdeal.Run
import proofs.«128115_j49460843381367_1_alg».proof.Proof.Gen.Pre_finite_inputs
import proofs.«128115_j49460843381367_1_alg».proof.Proof.KernelIdeal.Frames
import proofs.«128115_j49460843381367_1_alg».proof.Proof.KernelIdeal.Result
import proofs.«128115_j49460843381367_1_alg».proof.Proof.RefLayer
import Idealize.ShloMosaic.Adequacy
import Idealize.ShloMosaic.Init

set_option maxRecDepth 16384

noncomputable section

namespace Cert.Proof

open Idealize.ShloMosaic Idealize.ShloMosaic.TcCoe Idealize.ShloMosaic.Tactic Idealize.SL.Sem

theorem frame_ki : Cert.frame_KernelIdeal := fun m ρ _ => Cert.KernelIdeal.Hand.frame_all m ρ
-- The two printed programs are the same term, so the frame read at words is the word-level program's.
theorem frame_k : Cert.frame_Kernel := fun m ρ _ =>
  cast (by sl_kernel_rfl) (Cert.KernelIdeal.Hand.frame_all (F := Bits) m ρ)
theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' _ hagree
  refine ⟨fun c => Cert.RefLayer.out4 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.RefLayer.res_eq_out4, (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
